-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S1600000 .f32) (main_arg2 : FVec F S64x64 .f32) (main_arg3 : FVec F S64 .f32) (main_arg4 : FVec F S64 .f32) (main_arg5 : FVec F S64 .f32) (main_arg6 : IVec S1600000 32) (main_arg7 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S2000x64 : Shape := ⟨2, ![2000, 64]⟩

abbrev nBuf : Space → Nat
  | .hbm => 44
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S64x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S100000x64, .f32⟩
  | .hbm, ⟨29, _⟩ => ⟨S1x64, .f32⟩
  | .hbm, ⟨30, _⟩ => ⟨S1x64, .f32⟩
  | .hbm, ⟨31, _⟩ => ⟨S_, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S_, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v32 : BitVec 1 := Scalar.cmpi .eq arg0 c49_i32
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S2000x64 : S1x64.Broadcasts S2000x64
  reduces_S2000x64_S64 : S2000x64.Reduces [0] S64
  bcast_S_S1x64 : S_.BroadcastsInDim S1x64 (![] : Fin 0 → Fin S1x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v12) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v17_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 63
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S64x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.R0Shared.lean ====
import proofs.«159006_j88201448390851_1_alg».proof.Proof.Gen.Kernel.Launch
import proofs.«159006_j88201448390851_1_alg».proof.Proof.Gen.Kernel.Skeleton
import proofs.«159006_j88201448390851_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

abbrev ms0_0 (t : Fin cfg0.N) : Memref sig .tc .vmem S2000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)

abbrev scM0_0 : Memref sig .tc .vmem S1x64 .f32 := Memref.whole cc0_scratch0
abbrev scM0_1 : Memref sig .tc .vmem S1x64 .f32 := Memref.whole cc0_scratch1

def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 (F := F) c) ∗ (∃ r, prngReg c r)) := by
  unfold Pipeline.ΦA otherScoped0; rw [scopedRest0_eq]; simp only [scM0_0, scM0_1, owns_whole]; try rfl

end Cert.Kernel.Hand

end
-- ==== Proof.K.R0RunA.lean ====
import proofs.«159006_j88201448390851_1_alg».proof.Proof.K.R0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun0_A (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x0 : Vec F S2000x64 .f32) (x1 : Vec F S2000x64 .f32) (x2 : Vec F S64x64 .f32) (x3 : Vec F S1x64 .f32) :
    Σ' (L4 : List (View.Piece (Elt F) S2000x64 .f32)) (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lin_resid_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__lin_resid_stats_kernel_eq_skeleton]; unfold cc0__lin_resid_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R0RunB.lean ====
import proofs.«159006_j88201448390851_1_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun0_B (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x0 : Vec F S2000x64 .f32) (x1 : Vec F S2000x64 .f32) (x2 : Vec F S64x64 .f32) (x3 : Vec F S1x64 .f32) (xs0 xs1 : Vec F S1x64 .f32) :
    Σ' (L4 : List (View.Piece (Elt F) S2000x64 .f32)) (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lin_resid_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__lin_resid_stats_kernel_eq_skeleton]; unfold cc0__lin_resid_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.Hand

end
-- ==== Proof.K.R0RunC.lean ====
import proofs.«159006_j88201448390851_1_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun0_C (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x0 : Vec F S2000x64 .f32) (x1 : Vec F S2000x64 .f32) (x2 : Vec F S64x64 .f32) (x3 : Vec F S1x64 .f32) (xs0 xs1 : Vec F S1x64 .f32) :
    Σ' (L4 : List (View.Piece (Elt F) S2000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lin_resid_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__lin_resid_stats_kernel_eq_skeleton]; unfold cc0__lin_resid_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.K.R0Body.lean ====
import proofs.«159006_j88201448390851_1_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev Outs (F : FTy → Type) [FloatOps F] : Type :=
  Vec F S2000x64 .f32 × Vec F S1x64 .f32 × Vec F S1x64 .f32 × Vec F S1x64 .f32 × Vec F S1x64 .f32

def idleRow : Vec F S1x64 .f32 := View.canon []

-- Written pieces that cover a buffer leave it at their canonical contents, whatever it held.
theorem owns_canon {S : Shape} (c : Dev nD) (a : Memref sig .tc .vmem S .f32) (L : List (View.Piece (Elt F) S .f32))
    (h : ∀ y, ∃ pc ∈ L, y ∈ pc.1.set) :
    (iprop(∃ f, a.view.loc (c : Thread nD τ) ↦[a.view.set]{fullShare} a.view.writes (Elt F) f L) : sProp 𝕄)
      ⊢ owns (c : Thread nD τ) a fullShare (View.canon L) := by
  iintro ⟨%f, H⟩
  unfold owns; iexists _; isplitr
  swap; · iexact H
  ipureintro; exact View.read_writes_eq_canon _ _ _ h

section
variable (c : Dev nD) (t : Fin cfg0.N) (x0 x1 : Vec F S2000x64 .f32) (x2 : Vec F S64x64 .f32) (x3 : Vec F S1x64 .f32)

def runA (h0 : t.val % 50 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    ((hcond0_0 t).mpr h0) (fun h => by have := (hcond0_1 t).mp h; omega) x0 x1 x2 x3
def runB (h0 : ¬t.val % 50 = 0) (h1 : ¬t.val % 50 = 49) (xs0 xs1 : Vec F S1x64 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (fun h => h0 ((hcond0_0 t).mp h)) (fun h => h1 ((hcond0_1 t).mp h)) x0 x1 x2 x3 xs0 xs1
def runC (h1 : t.val % 50 = 49) (xs0 xs1 : Vec F S1x64 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (fun h => by have := (hcond0_0 t).mp h; omega) ((hcond0_1 t).mpr h1) x0 x1 x2 x3 xs0 xs1

theorem coverA_4 (h0 : t.val % 50 = 0) : ∀ y : S2000x64.Idx, ∃ pc ∈ (runA c t x0 x1 x2 x3 h0).1, y ∈ pc.1.set :=
  View.cover_of_tiledL (runA c t x0 x1 x2 x3 h0).1 S2000x64.size (by sl_kernel_rfl)
theorem coverA_s0 (h0 : t.val % 50 = 0) : ∀ y : S1x64.Idx, ∃ pc ∈ (runA c t x0 x1 x2 x3 h0).2.1, y ∈ pc.1.set :=
  View.cover_of_tiledL (runA c t x0 x1 x2 x3 h0).2.1 S1x64.size (by sl_kernel_rfl)
theorem coverA_s1 (h0 : t.val % 50 = 0) : ∀ y : S1x64.Idx, ∃ pc ∈ (runA c t x0 x1 x2 x3 h0).2.2.1, y ∈ pc.1.set :=
  View.cover_of_tiledL (runA c t x0 x1 x2 x3 h0).2.2.1 S1x64.size (by sl_kernel_rfl)
theorem coverB_4 (h0 : ¬t.val % 50 = 0) (h1 : ¬t.val % 50 = 49) (xs0 xs1 : Vec F S1x64 .f32) : ∀ y : S2000x64.Idx, ∃ pc ∈ (runB c t x0 x1 x2 x3 h0 h1 xs0 xs1).1, y ∈ pc.1.set :=
  View.cover_of_tiledL (runB c t x0 x1 x2 x3 h0 h1 xs0 xs1).1 S2000x64.size (by sl_kernel_rfl)
theorem coverB_s0 (h0 : ¬t.val % 50 = 0) (h1 : ¬t.val % 50 = 49) (xs0 xs1 : Vec F S1x64 .f32) : ∀ y : S1x64.Idx, ∃ pc ∈ (runB c t x0 x1 x2 x3 h0 h1 xs0 xs1).2.1, y ∈ pc.1.set :=
  View.cover_of_tiledL (runB c t x0 x1 x2 x3 h0 h1 xs0 xs1).2.1 S1x64.size (by sl_kernel_rfl)
theorem coverB_s1 (h0 : ¬t.val % 50 = 0) (h1 : ¬t.val % 50 = 49) (xs0 xs1 : Vec F S1x64 .f32) : ∀ y : S1x64.Idx, ∃ pc ∈ (runB c t x0 x1 x2 x3 h0 h1 xs0 xs1).2.2.1, y ∈ pc.1.set :=
  View.cover_of_tiledL (runB c t x0 x1 x2 x3 h0 h1 xs0 xs1).2.2.1 S1x64.size (by sl_kernel_rfl)
theorem coverC_4 (h1 : t.val % 50 = 49) (xs0 xs1 : Vec F S1x64 .f32) : ∀ y : S2000x64.Idx, ∃ pc ∈ (runC c t x0 x1 x2 x3 h1 xs0 xs1).1, y ∈ pc.1.set :=
  View.cover_of_tiledL (runC c t x0 x1 x2 x3 h1 xs0 xs1).1 S2000x64.size (by sl_kernel_rfl)
theorem coverC_5 (h1 : t.val % 50 = 49) (xs0 xs1 : Vec F S1x64 .f32) : ∀ y : S1x64.Idx, ∃ pc ∈ (runC c t x0 x1 x2 x3 h1 xs0 xs1).2.1, y ∈ pc.1.set :=
  View.cover_of_tiledL (runC c t x0 x1 x2 x3 h1 xs0 xs1).2.1 S1x64.size (by sl_kernel_rfl)
theorem coverC_6 (h1 : t.val % 50 = 49) (xs0 xs1 : Vec F S1x64 .f32) : ∀ y : S1x64.Idx, ∃ pc ∈ (runC c t x0 x1 x2 x3 h1 xs0 xs1).2.2.1, y ∈ pc.1.set :=
  View.cover_of_tiledL (runC c t x0 x1 x2 x3 h1 xs0 xs1).2.2.1 S1x64.size (by sl_kernel_rfl)
theorem coverC_s0 (h1 : t.val % 50 = 49) (xs0 xs1 : Vec F S1x64 .f32) : ∀ y : S1x64.Idx, ∃ pc ∈ (runC c t x0 x1 x2 x3 h1 xs0 xs1).2.2.2.1, y ∈ pc.1.set :=
  View.cover_of_tiledL (runC c t x0 x1 x2 x3 h1 xs0 xs1).2.2.2.1 S1x64.size (by sl_kernel_rfl)
theorem coverC_s1 (h1 : t.val % 50 = 49) (xs0 xs1 : Vec F S1x64 .f32) : ∀ y : S1x64.Idx, ∃ pc ∈ (runC c t x0 x1 x2 x3 h1 xs0 xs1).2.2.2.2.1, y ∈ pc.1.set :=
  View.cover_of_tiledL (runC c t x0 x1 x2 x3 h1 xs0 xs1).2.2.2.2.1 S1x64.size (by sl_kernel_rfl)

def outsA (h0 : t.val % 50 = 0) : Outs F :=
  (View.canon (runA c t x0 x1 x2 x3 h0).1, idleRow, idleRow, View.canon (runA c t x0 x1 x2 x3 h0).2.1, View.canon (runA c t x0 x1 x2 x3 h0).2.2.1)
def outsB (h0 : ¬t.val % 50 = 0) (h1 : ¬t.val % 50 = 49) (xs0 xs1 : Vec F S1x64 .f32) : Outs F :=
  (View.canon (runB c t x0 x1 x2 x3 h0 h1 xs0 xs1).1, idleRow, idleRow, View.canon (runB c t x0 x1 x2 x3 h0 h1 xs0 xs1).2.1, View.canon (runB c t x0 x1 x2 x3 h0 h1 xs0 xs1).2.2.1)
def outsC (h1 : t.val % 50 = 49) (xs0 xs1 : Vec F S1x64 .f32) : Outs F :=
  (View.canon (runC c t x0 x1 x2 x3 h1 xs0 xs1).1, View.canon (runC c t x0 x1 x2 x3 h1 xs0 xs1).2.1, View.canon (runC c t x0 x1 x2 x3 h1 xs0 xs1).2.2.1, View.canon (runC c t x0 x1 x2 x3 h1 xs0 xs1).2.2.2.1, View.canon (runC c t x0 x1 x2 x3 h1 xs0 xs1).2.2.2.2.1)

end

section
variable (V : (c : Dev nD) → (b : Ref sig .tc) → Buf (Elt F) ((c : Thread nD τ).loc b))

-- What the five buffers hold after the body at position n, by recursion on the point: each point continues the running rows the point before left.
def outsAt0 (c : Dev nD) : (n : ℕ) → n < cfg0.N → Outs F
  | 0, hn => outsA c ⟨0, hn⟩ (iblk0 V c 0 ⟨0, hn⟩) (iblk0 V c 1 ⟨0, hn⟩) (iblk0 V c 2 ⟨0, hn⟩) (iblk0 V c 3 ⟨0, hn⟩) (Nat.zero_mod _)
  | n + 1, hn =>
    if h1 : (n + 1) % 50 = 49 then
      outsC c ⟨n + 1, hn⟩ (iblk0 V c 0 ⟨n + 1, hn⟩) (iblk0 V c 1 ⟨n + 1, hn⟩) (iblk0 V c 2 ⟨n + 1, hn⟩) (iblk0 V c 3 ⟨n + 1, hn⟩) h1
        (outsAt0 c n (Nat.lt_of_succ_lt hn)).2.2.2.1 (outsAt0 c n (Nat.lt_of_succ_lt hn)).2.2.2.2
    else
      outsB c ⟨n + 1, hn⟩ (iblk0 V c 0 ⟨n + 1, hn⟩) (iblk0 V c 1 ⟨n + 1, hn⟩) (iblk0 V c 2 ⟨n + 1, hn⟩) (iblk0 V c 3 ⟨n + 1, hn⟩)
        (by have hN : n + 1 < 50 := lt_of_lt_of_eq hn (show cfg0.N = 50 from N_0); show ¬ (n + 1) % 50 = 0; omega) h1
        (outsAt0 c n (Nat.lt_of_succ_lt hn)).2.2.2.1 (outsAt0 c n (Nat.lt_of_succ_lt hn)).2.2.2.2

abbrev prev0 (c : Dev nD) (t : Fin cfg0.N) : Outs F := outsAt0 V c (t.val - 1) (Nat.lt_of_le_of_lt (Nat.sub_le _ _) t.isLt)

theorem outsAt0_A (c : Dev nD) (t : Fin cfg0.N) (h0 : t.val % 50 = 0) :
    outsAt0 V c t.val t.isLt = outsA c t (iblk0 V c 0 t) (iblk0 V c 1 t) (iblk0 V c 2 t) (iblk0 V c 3 t) h0 := by
  obtain ⟨n, hn⟩ := t
  cases n with
  | zero => exact rfl
  | succ n => exact (by exfalso; have hN : n + 1 < 50 := lt_of_lt_of_eq hn (show cfg0.N = 50 from N_0); (try dsimp only at h0); omega)

theorem outsAt0_B (c : Dev nD) (t : Fin cfg0.N) (h0 : ¬t.val % 50 = 0) (h1 : ¬t.val % 50 = 49) :
    outsAt0 V c t.val t.isLt = outsB c t (iblk0 V c 0 t) (iblk0 V c 1 t) (iblk0 V c 2 t) (iblk0 V c 3 t) h0 h1 (prev0 V c t).2.2.2.1 (prev0 V c t).2.2.2.2 := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h1 : t.val % 50 = 49) :
    outsAt0 V c t.val t.isLt = outsC c t (iblk0 V c 0 t) (iblk0 V c 1 t) (iblk0 V c 2 t) (iblk0 V c 3 t) h1 (prev0 V c t).2.2.2.1 (prev0 V c t).2.2.2.2 := by
  obtain ⟨n, hn⟩ := t
  cases n with
  | zero => exact (by exfalso; (try dsimp only at h1); omega)
  | succ n => exact (dif_pos h1).trans rfl

-- The region's invariant once a point has run: the two running rows at given contents.
def rowsInv (c : Dev nD) (r0 r1 : Vec F S1x64 .f32) : sProp 𝕄 :=
  iprop(iprop(owns (c : Thread nD τ) scM0_0 fullShare r0 ∗ owns (c : Thread nD τ) scM0_1 fullShare r1 ∗ otherScoped0 (F := F) c) ∗ (∃ r, prngReg c r))

def PhiS (c : Dev nD) : (n : ℕ) → n ≤ cfg0.N → sProp 𝕄
  | 0, _ => Pipeline.ΦA spec0 c
  | n + 1, hn => rowsInv c (outsAt0 V c n hn).2.2.2.1 (outsAt0 V c n hn).2.2.2.2

theorem PhiS_zero (c : Dev nD) (n : ℕ) (h : n ≤ cfg0.N) (hz : n = 0) : PhiS V c n h = Pipeline.ΦA spec0 c := by
  subst hz; rfl

theorem PhiS_pos (c : Dev nD) (n : ℕ) (h : n ≤ cfg0.N) (hz : n ≠ 0) :
    PhiS V c n h = rowsInv c (outsAt0 V c (n - 1) (by omega)).2.2.2.1 (outsAt0 V c (n - 1) (by omega)).2.2.2.2 := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) :
    (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]
theorem leaves0_4 (c : Dev nD) (t : Fin cfg0.N) :
    (dat0 V c).leavesExact 4 t = owns (c : Thread nD τ) (ms0_4 t) fullShare (outsAt0 V c t.val t.isLt).1 := by
  rw [show (dat0 V c).leavesExact 4 t = owns (c : Thread nD τ) (ms0_4 t) fullShare ((dat0 V c).after 4 t) from by
    unfold Dat.leavesExact; rw [liveAt0_4 t], after0_4]
theorem leaves0_5 (c : Dev nD) (t : Fin cfg0.N) (h : cond0_1 (grid0.coords t)) :
    (dat0 V c).leavesExact 5 t = owns (c : Thread nD τ) (ms0_5 t) fullShare (outsAt0 V c t.val t.isLt).2.1 := by
  rw [show (dat0 V c).leavesExact 5 t = owns (c : Thread nD τ) (ms0_5 t) fullShare ((dat0 V c).after 5 t) from by
    unfold Dat.leavesExact; rw [liveAt0_5 t h], after0_5]
theorem leaves0_6 (c : Dev nD) (t : Fin cfg0.N) (h : cond0_1 (grid0.coords t)) :
    (dat0 V c).leavesExact 6 t = owns (c : Thread nD τ) (ms0_6 t) fullShare (outsAt0 V c t.val t.isLt).2.2.1 := by
  rw [show (dat0 V c).leavesExact 6 t = owns (c : Thread nD τ) (ms0_6 t) fullShare ((dat0 V c).after 6 t) from by
    unfold Dat.leavesExact; rw [liveAt0_6 t h], after0_6]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
-- The body at any point, by the point's case: the invariant hands it the two running rows and takes them back at the point's contents.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, show PhiS V c (t.val + 1) t.isLt = rowsInv c (outsAt0 V c t.val t.isLt).2.2.2.1 (outsAt0 V c t.val t.isLt).2.2.2.2 from rfl]
  rw [leaves0_0 V c t, leaves0_1 V c t, leaves0_2 V c t, leaves0_3 V c t, leaves0_4 V c t, PhiS_castSucc V c t]
  have hN : t.val < 50 := lt_of_lt_of_eq t.isLt (show cfg0.N = 50 from N_0)
  by_cases h0 : t.val % 50 = 0
  · have hz : t.val = 0 := by omega
    have hc1 : ¬cond0_1 (grid0.coords t) := fun h => by have := (hcond0_1 t).mp h; omega
    rw [Dat.leavesExact_idle (dat0 V c) 5 t (idleAt0_5 t hc1) (noFlush0_5 t hc1), Dat.leavesExact_idle (dat0 V c) 6 t (idleAt0_6 t hc1) (noFlush0_6 t hc1)]
    rw [outsAt0_A V c t h0, PhiS_zero V c _ _ hz, PhiA0_eq]
    unfold outsA rowsInv; dsimp only
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c t (iblk0 V c 0 t) (iblk0 V c 1 t) (iblk0 V c 2 t) (iblk0 V c 3 t) h0).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hoth Hg]
    · isplitl [HS0 HS1 Hoth]
      · isplitl [HS0]; · iapply owns_canon c _ _ (coverA_s0 c t _ _ _ _ h0); iexact HS0
        isplitl [HS1]; · iapply owns_canon c _ _ (coverA_s1 c t _ _ _ _ h0); iexact HS1
        iexact Hoth
      iexact Hg
    isplitl [Ho]; · iexact Ho
    isplitl [H0]; · iexact H0
    isplitl [H1]; · iexact H1
    isplitl [H2]; · iexact H2
    isplitl [H3]; · iexact H3
    isplitl [H4]; · iapply owns_canon c _ _ (coverA_4 c t _ _ _ _ h0); iexact H4
    isplitl [H5]; · iexists _; iexact H5
    iexists _; iexact H6
  · have hz : t.val ≠ 0 := by omega
    rw [PhiS_pos V c _ _ hz]
    by_cases h1 : t.val % 50 = 49
    · rw [leaves0_5 V c t ((hcond0_1 t).mpr h1), leaves0_6 V c t ((hcond0_1 t).mpr h1), outsAt0_C V c t h1]
      unfold outsC rowsInv; dsimp only
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runC c t (iblk0 V c 0 t) (iblk0 V c 1 t) (iblk0 V c 2 t) (iblk0 V c 3 t) h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hoth Hg]
      · isplitl [HS0 HS1 Hoth]
        · isplitl [HS0]; · iapply owns_canon c _ _ (coverC_s0 c t _ _ _ _ h1 _ _); iexact HS0
          isplitl [HS1]; · iapply owns_canon c _ _ (coverC_s1 c t _ _ _ _ h1 _ _); iexact HS1
          iexact Hoth
        iexact Hg
      isplitl [Ho]; · iexact Ho
      isplitl [H0]; · iexact H0
      isplitl [H1]; · iexact H1
      isplitl [H2]; · iexact H2
      isplitl [H3]; · iexact H3
      isplitl [H4]; · iapply owns_canon c _ _ (coverC_4 c t _ _ _ _ h1 _ _); iexact H4
      isplitl [H5]; · iapply owns_canon c _ _ (coverC_5 c t _ _ _ _ h1 _ _); iexact H5
      iapply owns_canon c _ _ (coverC_6 c t _ _ _ _ h1 _ _); iexact H6
    · have hc1 : ¬cond0_1 (grid0.coords t) := fun h => h1 ((hcond0_1 t).mp h)
      rw [Dat.leavesExact_idle (dat0 V c) 5 t (idleAt0_5 t hc1) (noFlush0_5 t hc1), Dat.leavesExact_idle (dat0 V c) 6 t (idleAt0_6 t hc1) (noFlush0_6 t hc1)]
      rw [outsAt0_B V c t h0 h1]
      unfold outsB rowsInv; dsimp only
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c t (iblk0 V c 0 t) (iblk0 V c 1 t) (iblk0 V c 2 t) (iblk0 V c 3 t) h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hoth Hg]
      · isplitl [HS0 HS1 Hoth]
        · isplitl [HS0]; · iapply owns_canon c _ _ (coverB_s0 c t _ _ _ _ h0 h1 _ _); iexact HS0
          isplitl [HS1]; · iapply owns_canon c _ _ (coverB_s1 c t _ _ _ _ h0 h1 _ _); iexact HS1
          iexact Hoth
        iexact Hg
      isplitl [Ho]; · iexact Ho
      isplitl [H0]; · iexact H0
      isplitl [H1]; · iexact H1
      isplitl [H2]; · iexact H2
      isplitl [H3]; · iexact H3
      isplitl [H4]; · iapply owns_canon c _ _ (coverB_4 c t _ _ _ _ h0 h1 _ _); iexact H4
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

-- After any point the running rows' contents can be forgotten: the invariant weakens to the one the call was entered with.
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  unfold rowsInv
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 50 := N_0; omega)

end

end Cert.Kernel.Hand

end
-- ==== Proof.K.R1Body.lean ====
import proofs.«159006_j88201448390851_1_alg».proof.Proof.Gen.Kernel.Launch
import proofs.«159006_j88201448390851_1_alg».proof.Proof.Gen.Kernel.Skeleton
import proofs.«159006_j88201448390851_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x64 .f32 := win1_5.stage (cfg1.slots t 5)
abbrev hs1_5 (t : Fin cfg1.N) : (ms1_5 t).IsWhole := hstage1_5 ((cfg1.slots t 5).cast nbuf1_5)

set_option maxHeartbeats 4000000 in

noncomputable def kernelRun1 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) :
    { L5 : List (View.Piece (Elt F) S2000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__norm_act_kernel i arg1 harg1 arg2 harg2 arg3 harg3 arg4 harg4 arg5 harg5 arg6 harg6) K } := by
  refine ⟨?_, fun E K => ?run⟩
  case run =>
    simp only [cc1__norm_act_kernel_eq_skeleton]; unfold cc1__norm_act_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

section
variable (c : Dev nD) (t : Fin cfg1.N) (x0 : Vec F S2000x64 .f32) (x1 x2 x3 x4 : Vec F S1x64 .f32)

def run1 := kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) x0 x1 x2 x3 x4

theorem cover1_5 : ∀ y : S2000x64.Idx, ∃ pc ∈ (run1 c t x0 x1 x2 x3 x4).1, y ∈ pc.1.set :=
  View.cover_of_tiledL (run1 c t x0 x1 x2 x3 x4).1 S2000x64.size (by sl_kernel_rfl)

def out1_5 : Vec F S2000x64 .f32 := View.canon (run1 c t x0 x1 x2 x3 x4).1

end

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c t (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 c t (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5
  iintro ⟨HΦ, Ho, ⟨%d0, H0⟩, ⟨%d1, H1⟩, ⟨%d2, H2⟩, ⟨%d3, H3⟩, ⟨%d4, H4⟩, ⟨%d5, H5⟩⟩
  iapply ((run1 c t (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (cover1_5 c t _ _ _ _ _)

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
import proofs.«159006_j88201448390851_1_alg».proof.Proof.K.R0Body
import proofs.«159006_j88201448390851_1_alg».proof.Proof.K.R1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

abbrev argRefs : List (Ref sig .tc) := [main_arg0, main_arg1, main_arg2, main_arg3, main_arg4, main_arg5, main_arg6, main_arg7]

-- No host operation writes an argument: an argument is no operation's result buffer.
theorem host_keeps (W : Valuation τ sig (Elt F)) (b : Ref sig .tc) (hb : b ∈ argRefs) :
    StableHlo.after hostOps0 W (Proc.devRef .tc b) = W (Proc.devRef .tc b)
      ∧ StableHlo.after hostOps1 W (Proc.devRef .tc b) = W (Proc.devRef .tc b) := by
  simp only [argRefs, List.mem_cons, List.not_mem_nil, or_false] at hb
  rcases hb with rfl | rfl | rfl | rfl | rfl | rfl | rfl | rfl <;>
  refine ⟨StableHlo.after_of_forall_not_mem _ _ (List.forall_iff_forall_mem.mp ?_), StableHlo.after_of_forall_not_mem _ _ (List.forall_iff_forall_mem.mp ?_)⟩ <;>
  (simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))

-- So every argument ends as launched: the first call only reads x, and no other call touches an argument.
theorem W4_arg (c : Dev nD) : ∀ b ∈ (argRefs : List (Ref sig .tc)), W4 m ρ c (Proc.devRef .tc b) = m ((c : Thread nD τ).loc b) := by
  intro b hb
  have hk := fun W : Valuation τ sig (Elt F) => host_keeps W b hb
  simp only [argRefs, List.mem_cons, List.not_mem_nil, or_false] at hb
  rcases hb with rfl | rfl | rfl | rfl | rfl | rfl | rfl | rfl
  · exact (W4_of_ne m ρ c _ (by decide)).trans ((hk _).2.trans (((W2_arr m ρ c 1).trans (((dat0 (U1 m ρ) c).arrAt_in 1 rfl _).trans (A_eq0 (U1 m ρ) c 1))).trans (hk _).1))
  all_goals exact (W4_of_ne m ρ c _ (by decide)).trans ((hk _).2.trans ((W2_of_ne m ρ c _ (by decide)).trans (hk _).1))

abbrev hadm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) hadm p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in

def reg0 : Pipeline.RegionSeg (pcfgs (F := F)) hadm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m ρ) c)
    unfold Pipeline.ΦA
    iintro ⟨Hp, -, Hr⟩
    isplitl [Hr]; · iexact Hr
    iexact Hp
  hout c := by
    rw [Pipeline.ownSems0_none]
    refine (hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) hadm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) hadm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev hsegs : List (Pipeline.Seg (pcfgs (F := F)) hadm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (hsegs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) hadm (pdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

theorem result_mem : θ_run defs (onTc (τ := τ) (main (F := F))) ⟨m, fun _ => 0, ρ⟩ (fun r => ∀ c : Dev nD,
      r.2.mem ((c.tc : Thread nD τ).loc main_v27) = (dat1 (U3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v27 (by decide))).trans (W4_arr m ρ c 5),
     (h c _ (mem_uc main_arg0 (by decide))).trans (W4_arg m ρ c main_arg0 (by decide)),
     (h c _ (mem_uc main_arg1 (by decide))).trans (W4_arg m ρ c main_arg1 (by decide)),
     (h c _ (mem_uc main_arg2 (by decide))).trans (W4_arg m ρ c main_arg2 (by decide)),
     (h c _ (mem_uc main_arg3 (by decide))).trans (W4_arg m ρ c main_arg3 (by decide)),
     (h c _ (mem_uc main_arg4 (by decide))).trans (W4_arg m ρ c main_arg4 (by decide)),
     (h c _ (mem_uc main_arg5 (by decide))).trans (W4_arg m ρ c main_arg5 (by decide)),
     (h c _ (mem_uc main_arg6 (by decide))).trans (W4_arg m ρ c main_arg6 (by decide)),
     (h c _ (mem_uc main_arg7 (by decide))).trans (W4_arg m ρ c main_arg7 (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (result_mem m ρ)

end Cert.Kernel.Hand

end
-- ==== Proof.KI.R0Shared.lean ====
import proofs.«159006_j88201448390851_1_alg».proof.Proof.Gen.KernelIdeal.Launch
import proofs.«159006_j88201448390851_1_alg».proof.Proof.Gen.KernelIdeal.Skeleton
import proofs.«159006_j88201448390851_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

abbrev ms0_0 (t : Fin cfg0.N) : Memref sig .tc .vmem S2000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)

abbrev scM0_0 : Memref sig .tc .vmem S1x64 .f32 := Memref.whole cc0_scratch0
abbrev scM0_1 : Memref sig .tc .vmem S1x64 .f32 := Memref.whole cc0_scratch1

def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 (F := F) c) ∗ (∃ r, prngReg c r)) := by
  unfold Pipeline.ΦA otherScoped0; rw [scopedRest0_eq]; simp only [scM0_0, scM0_1, owns_whole]; try rfl

end Cert.KernelIdeal.Hand

end
-- ==== Proof.KI.R0RunA.lean ====
import proofs.«159006_j88201448390851_1_alg».proof.Proof.KI.R0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun0_A (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : cond0_0 i) (hc1 : ¬cond0_1 i)
    (x0 : Vec F S2000x64 .f32) (x1 : Vec F S2000x64 .f32) (x2 : Vec F S64x64 .f32) (x3 : Vec F S1x64 .f32) :
    Σ' (L4 : List (View.Piece (Elt F) S2000x64 .f32)) (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lin_resid_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__lin_resid_stats_kernel_eq_skeleton]; unfold cc0__lin_resid_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R0RunB.lean ====
import proofs.«159006_j88201448390851_1_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun0_B (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : ¬cond0_1 i)
    (x0 : Vec F S2000x64 .f32) (x1 : Vec F S2000x64 .f32) (x2 : Vec F S64x64 .f32) (x3 : Vec F S1x64 .f32) (xs0 xs1 : Vec F S1x64 .f32) :
    Σ' (L4 : List (View.Piece (Elt F) S2000x64 .f32)) (LS0 : List (View.Piece (Elt F) S1x64 .f32)), { LS1 : List (View.Piece (Elt F) S1x64 .f32) //
      ∀ (xi5 xi6 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xi5 ∗ owns (c : Thread nD τ) arg7 fullShare xi6
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ owns (c : Thread nD τ) arg6 fullShare xi5 ∗ owns (c : Thread nD τ) arg7 fullShare xi6
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lin_resid_stats_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc0__lin_resid_stats_kernel_eq_skeleton]; unfold cc0__lin_resid_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.Hand

end
-- ==== Proof.KI.R0RunC.lean ====
import proofs.«159006_j88201448390851_1_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun0_C (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hc0 : ¬cond0_0 i) (hc1 : cond0_1 i)
    (x0 : Vec F S2000x64 .f32) (x1 : Vec F S2000x64 .f32) (x2 : Vec F S64x64 .f32) (x3 : Vec F S1x64 .f32) (xs0 xs1 : Vec F S1x64 .f32) :
    Σ' (L4 : List (View.Piece (Elt F) S2000x64 .f32)) (L5 : List (View.Piece (Elt F) S1x64 .f32)) (L6 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__lin_resid_stats_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0__lin_resid_stats_kernel_eq_skeleton]; unfold cc0__lin_resid_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KI.R0Body.lean ====
import proofs.«159006_j88201448390851_1_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev Outs (F : FTy → Type) [FloatOps F] : Type :=
  Vec F S2000x64 .f32 × Vec F S1x64 .f32 × Vec F S1x64 .f32 × Vec F S1x64 .f32 × Vec F S1x64 .f32

def idleRow : Vec F S1x64 .f32 := View.canon []

-- Written pieces that cover a buffer leave it at their canonical contents, whatever it held.
theorem owns_canon {S : Shape} (c : Dev nD) (a : Memref sig .tc .vmem S .f32) (L : List (View.Piece (Elt F) S .f32))
    (h : ∀ y, ∃ pc ∈ L, y ∈ pc.1.set) :
    (iprop(∃ f, a.view.loc (c : Thread nD τ) ↦[a.view.set]{fullShare} a.view.writes (Elt F) f L) : sProp 𝕄)
      ⊢ owns (c : Thread nD τ) a fullShare (View.canon L) := by
  iintro ⟨%f, H⟩
  unfold owns; iexists _; isplitr
  swap; · iexact H
  ipureintro; exact View.read_writes_eq_canon _ _ _ h

section
variable (c : Dev nD) (t : Fin cfg0.N) (x0 x1 : Vec F S2000x64 .f32) (x2 : Vec F S64x64 .f32) (x3 : Vec F S1x64 .f32)

def runA (h0 : t.val % 50 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    ((hcond0_0 t).mpr h0) (fun h => by have := (hcond0_1 t).mp h; omega) x0 x1 x2 x3
def runB (h0 : ¬t.val % 50 = 0) (h1 : ¬t.val % 50 = 49) (xs0 xs1 : Vec F S1x64 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (fun h => h0 ((hcond0_0 t).mp h)) (fun h => h1 ((hcond0_1 t).mp h)) x0 x1 x2 x3 xs0 xs1
def runC (h1 : t.val % 50 = 49) (xs0 xs1 : Vec F S1x64 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (fun h => by have := (hcond0_0 t).mp h; omega) ((hcond0_1 t).mpr h1) x0 x1 x2 x3 xs0 xs1

theorem coverA_4 (h0 : t.val % 50 = 0) : ∀ y : S2000x64.Idx, ∃ pc ∈ (runA c t x0 x1 x2 x3 h0).1, y ∈ pc.1.set :=
  View.cover_of_tiledL (runA c t x0 x1 x2 x3 h0).1 S2000x64.size (by sl_kernel_rfl)
theorem coverA_s0 (h0 : t.val % 50 = 0) : ∀ y : S1x64.Idx, ∃ pc ∈ (runA c t x0 x1 x2 x3 h0).2.1, y ∈ pc.1.set :=
  View.cover_of_tiledL (runA c t x0 x1 x2 x3 h0).2.1 S1x64.size (by sl_kernel_rfl)
theorem coverA_s1 (h0 : t.val % 50 = 0) : ∀ y : S1x64.Idx, ∃ pc ∈ (runA c t x0 x1 x2 x3 h0).2.2.1, y ∈ pc.1.set :=
  View.cover_of_tiledL (runA c t x0 x1 x2 x3 h0).2.2.1 S1x64.size (by sl_kernel_rfl)
theorem coverB_4 (h0 : ¬t.val % 50 = 0) (h1 : ¬t.val % 50 = 49) (xs0 xs1 : Vec F S1x64 .f32) : ∀ y : S2000x64.Idx, ∃ pc ∈ (runB c t x0 x1 x2 x3 h0 h1 xs0 xs1).1, y ∈ pc.1.set :=
  View.cover_of_tiledL (runB c t x0 x1 x2 x3 h0 h1 xs0 xs1).1 S2000x64.size (by sl_kernel_rfl)
theorem coverB_s0 (h0 : ¬t.val % 50 = 0) (h1 : ¬t.val % 50 = 49) (xs0 xs1 : Vec F S1x64 .f32) : ∀ y : S1x64.Idx, ∃ pc ∈ (runB c t x0 x1 x2 x3 h0 h1 xs0 xs1).2.1, y ∈ pc.1.set :=
  View.cover_of_tiledL (runB c t x0 x1 x2 x3 h0 h1 xs0 xs1).2.1 S1x64.size (by sl_kernel_rfl)
theorem coverB_s1 (h0 : ¬t.val % 50 = 0) (h1 : ¬t.val % 50 = 49) (xs0 xs1 : Vec F S1x64 .f32) : ∀ y : S1x64.Idx, ∃ pc ∈ (runB c t x0 x1 x2 x3 h0 h1 xs0 xs1).2.2.1, y ∈ pc.1.set :=
  View.cover_of_tiledL (runB c t x0 x1 x2 x3 h0 h1 xs0 xs1).2.2.1 S1x64.size (by sl_kernel_rfl)
theorem coverC_4 (h1 : t.val % 50 = 49) (xs0 xs1 : Vec F S1x64 .f32) : ∀ y : S2000x64.Idx, ∃ pc ∈ (runC c t x0 x1 x2 x3 h1 xs0 xs1).1, y ∈ pc.1.set :=
  View.cover_of_tiledL (runC c t x0 x1 x2 x3 h1 xs0 xs1).1 S2000x64.size (by sl_kernel_rfl)
theorem coverC_5 (h1 : t.val % 50 = 49) (xs0 xs1 : Vec F S1x64 .f32) : ∀ y : S1x64.Idx, ∃ pc ∈ (runC c t x0 x1 x2 x3 h1 xs0 xs1).2.1, y ∈ pc.1.set :=
  View.cover_of_tiledL (runC c t x0 x1 x2 x3 h1 xs0 xs1).2.1 S1x64.size (by sl_kernel_rfl)
theorem coverC_6 (h1 : t.val % 50 = 49) (xs0 xs1 : Vec F S1x64 .f32) : ∀ y : S1x64.Idx, ∃ pc ∈ (runC c t x0 x1 x2 x3 h1 xs0 xs1).2.2.1, y ∈ pc.1.set :=
  View.cover_of_tiledL (runC c t x0 x1 x2 x3 h1 xs0 xs1).2.2.1 S1x64.size (by sl_kernel_rfl)
theorem coverC_s0 (h1 : t.val % 50 = 49) (xs0 xs1 : Vec F S1x64 .f32) : ∀ y : S1x64.Idx, ∃ pc ∈ (runC c t x0 x1 x2 x3 h1 xs0 xs1).2.2.2.1, y ∈ pc.1.set :=
  View.cover_of_tiledL (runC c t x0 x1 x2 x3 h1 xs0 xs1).2.2.2.1 S1x64.size (by sl_kernel_rfl)
theorem coverC_s1 (h1 : t.val % 50 = 49) (xs0 xs1 : Vec F S1x64 .f32) : ∀ y : S1x64.Idx, ∃ pc ∈ (runC c t x0 x1 x2 x3 h1 xs0 xs1).2.2.2.2.1, y ∈ pc.1.set :=
  View.cover_of_tiledL (runC c t x0 x1 x2 x3 h1 xs0 xs1).2.2.2.2.1 S1x64.size (by sl_kernel_rfl)

def outsA (h0 : t.val % 50 = 0) : Outs F :=
  (View.canon (runA c t x0 x1 x2 x3 h0).1, idleRow, idleRow, View.canon (runA c t x0 x1 x2 x3 h0).2.1, View.canon (runA c t x0 x1 x2 x3 h0).2.2.1)
def outsB (h0 : ¬t.val % 50 = 0) (h1 : ¬t.val % 50 = 49) (xs0 xs1 : Vec F S1x64 .f32) : Outs F :=
  (View.canon (runB c t x0 x1 x2 x3 h0 h1 xs0 xs1).1, idleRow, idleRow, View.canon (runB c t x0 x1 x2 x3 h0 h1 xs0 xs1).2.1, View.canon (runB c t x0 x1 x2 x3 h0 h1 xs0 xs1).2.2.1)
def outsC (h1 : t.val % 50 = 49) (xs0 xs1 : Vec F S1x64 .f32) : Outs F :=
  (View.canon (runC c t x0 x1 x2 x3 h1 xs0 xs1).1, View.canon (runC c t x0 x1 x2 x3 h1 xs0 xs1).2.1, View.canon (runC c t x0 x1 x2 x3 h1 xs0 xs1).2.2.1, View.canon (runC c t x0 x1 x2 x3 h1 xs0 xs1).2.2.2.1, View.canon (runC c t x0 x1 x2 x3 h1 xs0 xs1).2.2.2.2.1)

end

section
variable (V : (c : Dev nD) → (b : Ref sig .tc) → Buf (Elt F) ((c : Thread nD τ).loc b))

-- What the five buffers hold after the body at position n, by recursion on the point: each point continues the running rows the point before left.
def outsAt0 (c : Dev nD) : (n : ℕ) → n < cfg0.N → Outs F
  | 0, hn => outsA c ⟨0, hn⟩ (iblk0 V c 0 ⟨0, hn⟩) (iblk0 V c 1 ⟨0, hn⟩) (iblk0 V c 2 ⟨0, hn⟩) (iblk0 V c 3 ⟨0, hn⟩) (Nat.zero_mod _)
  | n + 1, hn =>
    if h1 : (n + 1) % 50 = 49 then
      outsC c ⟨n + 1, hn⟩ (iblk0 V c 0 ⟨n + 1, hn⟩) (iblk0 V c 1 ⟨n + 1, hn⟩) (iblk0 V c 2 ⟨n + 1, hn⟩) (iblk0 V c 3 ⟨n + 1, hn⟩) h1
        (outsAt0 c n (Nat.lt_of_succ_lt hn)).2.2.2.1 (outsAt0 c n (Nat.lt_of_succ_lt hn)).2.2.2.2
    else
      outsB c ⟨n + 1, hn⟩ (iblk0 V c 0 ⟨n + 1, hn⟩) (iblk0 V c 1 ⟨n + 1, hn⟩) (iblk0 V c 2 ⟨n + 1, hn⟩) (iblk0 V c 3 ⟨n + 1, hn⟩)
        (by have hN : n + 1 < 50 := lt_of_lt_of_eq hn (show cfg0.N = 50 from N_0); show ¬ (n + 1) % 50 = 0; omega) h1
        (outsAt0 c n (Nat.lt_of_succ_lt hn)).2.2.2.1 (outsAt0 c n (Nat.lt_of_succ_lt hn)).2.2.2.2

abbrev prev0 (c : Dev nD) (t : Fin cfg0.N) : Outs F := outsAt0 V c (t.val - 1) (Nat.lt_of_le_of_lt (Nat.sub_le _ _) t.isLt)

theorem outsAt0_A (c : Dev nD) (t : Fin cfg0.N) (h0 : t.val % 50 = 0) :
    outsAt0 V c t.val t.isLt = outsA c t (iblk0 V c 0 t) (iblk0 V c 1 t) (iblk0 V c 2 t) (iblk0 V c 3 t) h0 := by
  obtain ⟨n, hn⟩ := t
  cases n with
  | zero => exact rfl
  | succ n => exact (by exfalso; have hN : n + 1 < 50 := lt_of_lt_of_eq hn (show cfg0.N = 50 from N_0); (try dsimp only at h0); omega)

theorem outsAt0_B (c : Dev nD) (t : Fin cfg0.N) (h0 : ¬t.val % 50 = 0) (h1 : ¬t.val % 50 = 49) :
    outsAt0 V c t.val t.isLt = outsB c t (iblk0 V c 0 t) (iblk0 V c 1 t) (iblk0 V c 2 t) (iblk0 V c 3 t) h0 h1 (prev0 V c t).2.2.2.1 (prev0 V c t).2.2.2.2 := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h1 : t.val % 50 = 49) :
    outsAt0 V c t.val t.isLt = outsC c t (iblk0 V c 0 t) (iblk0 V c 1 t) (iblk0 V c 2 t) (iblk0 V c 3 t) h1 (prev0 V c t).2.2.2.1 (prev0 V c t).2.2.2.2 := by
  obtain ⟨n, hn⟩ := t
  cases n with
  | zero => exact (by exfalso; (try dsimp only at h1); omega)
  | succ n => exact (dif_pos h1).trans rfl

-- The region's invariant once a point has run: the two running rows at given contents.
def rowsInv (c : Dev nD) (r0 r1 : Vec F S1x64 .f32) : sProp 𝕄 :=
  iprop(iprop(owns (c : Thread nD τ) scM0_0 fullShare r0 ∗ owns (c : Thread nD τ) scM0_1 fullShare r1 ∗ otherScoped0 (F := F) c) ∗ (∃ r, prngReg c r))

def PhiS (c : Dev nD) : (n : ℕ) → n ≤ cfg0.N → sProp 𝕄
  | 0, _ => Pipeline.ΦA spec0 c
  | n + 1, hn => rowsInv c (outsAt0 V c n hn).2.2.2.1 (outsAt0 V c n hn).2.2.2.2

theorem PhiS_zero (c : Dev nD) (n : ℕ) (h : n ≤ cfg0.N) (hz : n = 0) : PhiS V c n h = Pipeline.ΦA spec0 c := by
  subst hz; rfl

theorem PhiS_pos (c : Dev nD) (n : ℕ) (h : n ≤ cfg0.N) (hz : n ≠ 0) :
    PhiS V c n h = rowsInv c (outsAt0 V c (n - 1) (by omega)).2.2.2.1 (outsAt0 V c (n - 1) (by omega)).2.2.2.2 := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) :
    (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]
theorem leaves0_4 (c : Dev nD) (t : Fin cfg0.N) :
    (dat0 V c).leavesExact 4 t = owns (c : Thread nD τ) (ms0_4 t) fullShare (outsAt0 V c t.val t.isLt).1 := by
  rw [show (dat0 V c).leavesExact 4 t = owns (c : Thread nD τ) (ms0_4 t) fullShare ((dat0 V c).after 4 t) from by
    unfold Dat.leavesExact; rw [liveAt0_4 t], after0_4]
theorem leaves0_5 (c : Dev nD) (t : Fin cfg0.N) (h : cond0_1 (grid0.coords t)) :
    (dat0 V c).leavesExact 5 t = owns (c : Thread nD τ) (ms0_5 t) fullShare (outsAt0 V c t.val t.isLt).2.1 := by
  rw [show (dat0 V c).leavesExact 5 t = owns (c : Thread nD τ) (ms0_5 t) fullShare ((dat0 V c).after 5 t) from by
    unfold Dat.leavesExact; rw [liveAt0_5 t h], after0_5]
theorem leaves0_6 (c : Dev nD) (t : Fin cfg0.N) (h : cond0_1 (grid0.coords t)) :
    (dat0 V c).leavesExact 6 t = owns (c : Thread nD τ) (ms0_6 t) fullShare (outsAt0 V c t.val t.isLt).2.2.1 := by
  rw [show (dat0 V c).leavesExact 6 t = owns (c : Thread nD τ) (ms0_6 t) fullShare ((dat0 V c).after 6 t) from by
    unfold Dat.leavesExact; rw [liveAt0_6 t h], after0_6]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
-- The body at any point, by the point's case: the invariant hands it the two running rows and takes them back at the point's contents.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, show PhiS V c (t.val + 1) t.isLt = rowsInv c (outsAt0 V c t.val t.isLt).2.2.2.1 (outsAt0 V c t.val t.isLt).2.2.2.2 from rfl]
  rw [leaves0_0 V c t, leaves0_1 V c t, leaves0_2 V c t, leaves0_3 V c t, leaves0_4 V c t, PhiS_castSucc V c t]
  have hN : t.val < 50 := lt_of_lt_of_eq t.isLt (show cfg0.N = 50 from N_0)
  by_cases h0 : t.val % 50 = 0
  · have hz : t.val = 0 := by omega
    have hc1 : ¬cond0_1 (grid0.coords t) := fun h => by have := (hcond0_1 t).mp h; omega
    rw [Dat.leavesExact_idle (dat0 V c) 5 t (idleAt0_5 t hc1) (noFlush0_5 t hc1), Dat.leavesExact_idle (dat0 V c) 6 t (idleAt0_6 t hc1) (noFlush0_6 t hc1)]
    rw [outsAt0_A V c t h0, PhiS_zero V c _ _ hz, PhiA0_eq]
    unfold outsA rowsInv; dsimp only
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c t (iblk0 V c 0 t) (iblk0 V c 1 t) (iblk0 V c 2 t) (iblk0 V c 3 t) h0).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hoth Hg]
    · isplitl [HS0 HS1 Hoth]
      · isplitl [HS0]; · iapply owns_canon c _ _ (coverA_s0 c t _ _ _ _ h0); iexact HS0
        isplitl [HS1]; · iapply owns_canon c _ _ (coverA_s1 c t _ _ _ _ h0); iexact HS1
        iexact Hoth
      iexact Hg
    isplitl [Ho]; · iexact Ho
    isplitl [H0]; · iexact H0
    isplitl [H1]; · iexact H1
    isplitl [H2]; · iexact H2
    isplitl [H3]; · iexact H3
    isplitl [H4]; · iapply owns_canon c _ _ (coverA_4 c t _ _ _ _ h0); iexact H4
    isplitl [H5]; · iexists _; iexact H5
    iexists _; iexact H6
  · have hz : t.val ≠ 0 := by omega
    rw [PhiS_pos V c _ _ hz]
    by_cases h1 : t.val % 50 = 49
    · rw [leaves0_5 V c t ((hcond0_1 t).mpr h1), leaves0_6 V c t ((hcond0_1 t).mpr h1), outsAt0_C V c t h1]
      unfold outsC rowsInv; dsimp only
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runC c t (iblk0 V c 0 t) (iblk0 V c 1 t) (iblk0 V c 2 t) (iblk0 V c 3 t) h1 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hoth Hg]
      · isplitl [HS0 HS1 Hoth]
        · isplitl [HS0]; · iapply owns_canon c _ _ (coverC_s0 c t _ _ _ _ h1 _ _); iexact HS0
          isplitl [HS1]; · iapply owns_canon c _ _ (coverC_s1 c t _ _ _ _ h1 _ _); iexact HS1
          iexact Hoth
        iexact Hg
      isplitl [Ho]; · iexact Ho
      isplitl [H0]; · iexact H0
      isplitl [H1]; · iexact H1
      isplitl [H2]; · iexact H2
      isplitl [H3]; · iexact H3
      isplitl [H4]; · iapply owns_canon c _ _ (coverC_4 c t _ _ _ _ h1 _ _); iexact H4
      isplitl [H5]; · iapply owns_canon c _ _ (coverC_5 c t _ _ _ _ h1 _ _); iexact H5
      iapply owns_canon c _ _ (coverC_6 c t _ _ _ _ h1 _ _); iexact H6
    · have hc1 : ¬cond0_1 (grid0.coords t) := fun h => h1 ((hcond0_1 t).mp h)
      rw [Dat.leavesExact_idle (dat0 V c) 5 t (idleAt0_5 t hc1) (noFlush0_5 t hc1), Dat.leavesExact_idle (dat0 V c) 6 t (idleAt0_6 t hc1) (noFlush0_6 t hc1)]
      rw [outsAt0_B V c t h0 h1]
      unfold outsB rowsInv; dsimp only
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c t (iblk0 V c 0 t) (iblk0 V c 1 t) (iblk0 V c 2 t) (iblk0 V c 3 t) h0 h1 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hoth Hg]
      · isplitl [HS0 HS1 Hoth]
        · isplitl [HS0]; · iapply owns_canon c _ _ (coverB_s0 c t _ _ _ _ h0 h1 _ _); iexact HS0
          isplitl [HS1]; · iapply owns_canon c _ _ (coverB_s1 c t _ _ _ _ h0 h1 _ _); iexact HS1
          iexact Hoth
        iexact Hg
      isplitl [Ho]; · iexact Ho
      isplitl [H0]; · iexact H0
      isplitl [H1]; · iexact H1
      isplitl [H2]; · iexact H2
      isplitl [H3]; · iexact H3
      isplitl [H4]; · iapply owns_canon c _ _ (coverB_4 c t _ _ _ _ h0 h1 _ _); iexact H4
      isplitl [H5]; · iexists _; iexact H5
      iexists _; iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

-- After any point the running rows' contents can be forgotten: the invariant weakens to the one the call was entered with.
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  unfold rowsInv
  iintro ⟨⟨HS0, HS1, Hoth⟩, Hg⟩
  isplitl [HS0 HS1 Hoth]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 50 := N_0; omega)

end

end Cert.KernelIdeal.Hand

end
-- ==== Proof.KI.R1Body.lean ====
import proofs.«159006_j88201448390851_1_alg».proof.Proof.Gen.KernelIdeal.Launch
import proofs.«159006_j88201448390851_1_alg».proof.Proof.Gen.KernelIdeal.Skeleton
import proofs.«159006_j88201448390851_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x64 .f32 := win1_5.stage (cfg1.slots t 5)
abbrev hs1_5 (t : Fin cfg1.N) : (ms1_5 t).IsWhole := hstage1_5 ((cfg1.slots t 5).cast nbuf1_5)

set_option maxHeartbeats 4000000 in

noncomputable def kernelRun1 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) :
    { L5 : List (View.Piece (Elt F) S2000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__norm_act_kernel i arg1 harg1 arg2 harg2 arg3 harg3 arg4 harg4 arg5 harg5 arg6 harg6) K } := by
  refine ⟨?_, fun E K => ?run⟩
  case run =>
    simp only [cc1__norm_act_kernel_eq_skeleton]; unfold cc1__norm_act_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

section
variable (c : Dev nD) (t : Fin cfg1.N) (x0 : Vec F S2000x64 .f32) (x1 x2 x3 x4 : Vec F S1x64 .f32)

def run1 := kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) x0 x1 x2 x3 x4

theorem cover1_5 : ∀ y : S2000x64.Idx, ∃ pc ∈ (run1 c t x0 x1 x2 x3 x4).1, y ∈ pc.1.set :=
  View.cover_of_tiledL (run1 c t x0 x1 x2 x3 x4).1 S2000x64.size (by sl_kernel_rfl)

def out1_5 : Vec F S2000x64 .f32 := View.canon (run1 c t x0 x1 x2 x3 x4).1

end

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c t (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 c t (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5
  iintro ⟨HΦ, Ho, ⟨%d0, H0⟩, ⟨%d1, H1⟩, ⟨%d2, H2⟩, ⟨%d3, H3⟩, ⟨%d4, H4⟩, ⟨%d5, H5⟩⟩
  iapply ((run1 c t (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (cover1_5 c t _ _ _ _ _)

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
import proofs.«159006_j88201448390851_1_alg».proof.Proof.KI.R0Body
import proofs.«159006_j88201448390851_1_alg».proof.Proof.KI.R1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

abbrev argRefs : List (Ref sig .tc) := [main_arg0, main_arg1, main_arg2, main_arg3, main_arg4, main_arg5, main_arg6, main_arg7]

-- No host operation writes an argument: an argument is no operation's result buffer.
theorem host_keeps (W : Valuation τ sig (Elt F)) (b : Ref sig .tc) (hb : b ∈ argRefs) :
    StableHlo.after hostOps0 W (Proc.devRef .tc b) = W (Proc.devRef .tc b)
      ∧ StableHlo.after hostOps1 W (Proc.devRef .tc b) = W (Proc.devRef .tc b) := by
  simp only [argRefs, List.mem_cons, List.not_mem_nil, or_false] at hb
  rcases hb with rfl | rfl | rfl | rfl | rfl | rfl | rfl | rfl <;>
  refine ⟨StableHlo.after_of_forall_not_mem _ _ (List.forall_iff_forall_mem.mp ?_), StableHlo.after_of_forall_not_mem _ _ (List.forall_iff_forall_mem.mp ?_)⟩ <;>
  (simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))

-- So every argument ends as launched: the first call only reads x, and no other call touches an argument.
theorem W4_arg (c : Dev nD) : ∀ b ∈ (argRefs : List (Ref sig .tc)), W4 m ρ c (Proc.devRef .tc b) = m ((c : Thread nD τ).loc b) := by
  intro b hb
  have hk := fun W : Valuation τ sig (Elt F) => host_keeps W b hb
  simp only [argRefs, List.mem_cons, List.not_mem_nil, or_false] at hb
  rcases hb with rfl | rfl | rfl | rfl | rfl | rfl | rfl | rfl
  · exact (W4_of_ne m ρ c _ (by decide)).trans ((hk _).2.trans (((W2_arr m ρ c 1).trans (((dat0 (U1 m ρ) c).arrAt_in 1 rfl _).trans (A_eq0 (U1 m ρ) c 1))).trans (hk _).1))
  all_goals exact (W4_of_ne m ρ c _ (by decide)).trans ((hk _).2.trans ((W2_of_ne m ρ c _ (by decide)).trans (hk _).1))

abbrev hadm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) hadm p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in

def reg0 : Pipeline.RegionSeg (pcfgs (F := F)) hadm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U1 m ρ) c)
    unfold Pipeline.ΦA
    iintro ⟨Hp, -, Hr⟩
    isplitl [Hr]; · iexact Hr
    iexact Hp
  hout c := by
    rw [Pipeline.ownSems0_none]
    refine (hout0 (U1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) hadm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) hadm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev hsegs : List (Pipeline.Seg (pcfgs (F := F)) hadm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (hsegs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) hadm (pdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

theorem result_mem : θ_run defs (onTc (τ := τ) (main (F := F))) ⟨m, fun _ => 0, ρ⟩ (fun r => ∀ c : Dev nD,
      r.2.mem ((c.tc : Thread nD τ).loc main_v27) = (dat1 (U3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v27 (by decide))).trans (W4_arr m ρ c 5),
     (h c _ (mem_uc main_arg0 (by decide))).trans (W4_arg m ρ c main_arg0 (by decide)),
     (h c _ (mem_uc main_arg1 (by decide))).trans (W4_arg m ρ c main_arg1 (by decide)),
     (h c _ (mem_uc main_arg2 (by decide))).trans (W4_arg m ρ c main_arg2 (by decide)),
     (h c _ (mem_uc main_arg3 (by decide))).trans (W4_arg m ρ c main_arg3 (by decide)),
     (h c _ (mem_uc main_arg4 (by decide))).trans (W4_arg m ρ c main_arg4 (by decide)),
     (h c _ (mem_uc main_arg5 (by decide))).trans (W4_arg m ρ c main_arg5 (by decide)),
     (h c _ (mem_uc main_arg6 (by decide))).trans (W4_arg m ρ c main_arg6 (by decide)),
     (h c _ (mem_uc main_arg7 (by decide))).trans (W4_arg m ρ c main_arg7 (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (result_mem m ρ)

end Cert.KernelIdeal.Hand

end
-- ==== Proof.LibIndexedRows.lean ====
import Idealize.ShloMosaic.Lib.ValueIdx
import Idealize.ShloMosaic.PureOps.Contract

noncomputable section

open scoped BigOperators

namespace Idealize.ShloMosaic.IndexedRows

open Idealize.ShloMosaic Idealize.ShloMosaic.ValueIdx

theorem getElem_of_eq_singleton {α : Type} {l : List α} {x : α} (hl : l = [x]) (i : Nat) (h : i < l.length) : l[i] = x := by
  subst hl
  have hi : i = 0 := by simpa using h
  subst hi; rfl

theorem kept_zero (f : Fin 2 → Nat) : Shape.kept ⟨2, f⟩ [0] = [1] := by
  show (List.finRange 2).filter (· ∉ ([0] : List (Fin 2))) = [1]
  decide

theorem kept_one (f : Fin 2 → Nat) : Shape.kept ⟨2, f⟩ [1] = [0] := by
  show (List.finRange 2).filter (· ∉ ([1] : List (Fin 2))) = [0]
  decide

theorem val_at_zero {n0 n1 : Nat} (j : (⟨2, ![n0, n1]⟩ : Shape).Idx) (X : Fin 2) (hX : X = 0) : (j X).val = (j 0).val := by
  subst hX; rfl

theorem val_at_one {n0 n1 : Nat} (j : (⟨2, ![n0, n1]⟩ : Shape).Idx) (X : Fin 2) (hX : X = 1) : (j X).val = (j 1).val := by
  subst hX; rfl

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg Fin.val (congrFun hf a)
      have h2 := (h a).1
      simp only at h1
      omega
    · intro hf
      funext a
      apply Fin.ext
      have h1 := hf a
      have h2 := (h a).1
      show (d.start j idx a + (d.window j a : ℤ)).toNat = (i a).val
      omega
  · rename_i h
    constructor
    · intro hf; exact absurd hf (by simp)
    · intro hf
      exfalso; apply h; intro a
      have h1 := hf a
      have h2 := (i a).isLt
      omega

section ScatterRows
variable {N D E w : Nat} (d : ScatterDims ⟨2, ![N, D]⟩ ⟨2, ![E, 1]⟩ ⟨2, ![E, D]⟩)

theorem siIdx_rows (huw : d.updateWindowDims = [1]) (hivd : d.indexVectorDim = 1)
    (j : (⟨2, ![E, D]⟩ : Shape).Idx) (c : Fin d.scatterDimsToOperandDims.length) (hc : c.val = 0) :
    d.siIdx j c = ix2 (j 0) 0 := by
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; exact kept_one _
    exact val_at_zero j _ (getElem_of_eq_singleton hus _ _)
  | ⟨1, _⟩ =>
    unfold ScatterDims.siIdx
    rw [dif_pos (by rw [hivd])]
    apply Fin.ext
    exact hc

theorem start_row (huw : d.updateWindowDims = [1]) (hsd : d.scatterDimsToOperandDims = [0]) (hivd : d.indexVectorDim = 1)
    (j : (⟨2, ![E, D]⟩ : Shape).Idx) (idx : IVec ⟨2, ![E, 1]⟩ w) :
    d.start j idx 0 = (idx (ix2 (j 0) 0)).toInt := by
  have hm : (0 : Fin 2) ∈ d.scatterDimsToOperandDims := by rw [hsd]; exact List.mem_singleton.mpr rfl
  unfold ScatterDims.start
  rw [dif_pos hm, siIdx_rows d huw hivd j _ (by
    show List.idxOf (0 : Fin 2) d.scatterDimsToOperandDims = 0
    rw [hsd]; simp)]
  rfl

theorem start_col (hsd : d.scatterDimsToOperandDims = [0]) (j : (⟨2, ![E, D]⟩ : Shape).Idx) (idx : IVec ⟨2, ![E, 1]⟩ w) :
    d.start j idx 1 = 0 := by
  have hm : (1 : Fin 2) ∉ d.scatterDimsToOperandDims := by
    rw [hsd]; show (1 : Fin 2) ∉ ([0] : List (Fin 2)); decide
  unfold ScatterDims.start
  rw [dif_neg hm]

theorem window_row (hiw : d.insertedWindowDims = [0]) (j : (⟨2, ![E, D]⟩ : Shape).Idx) : d.window j 0 = 0 := by
  have hm : (0 : Fin 2) ∉ d.sKept := by
    show (0 : Fin 2) ∉ Shape.kept _ d.insertedWindowDims
    rw [hiw, kept_zero]; show (0 : Fin 2) ∉ ([1] : List (Fin 2)); decide
  unfold ScatterDims.window
  rw [dif_neg hm]

theorem window_col (huw : d.updateWindowDims = [1]) (hiw : d.insertedWindowDims = [0]) (j : (⟨2, ![E, D]⟩ : Shape).Idx) :
    d.window j 1 = (j 1).val := by
  have hm : (1 : Fin 2) ∈ d.sKept := by
    show (1 : Fin 2) ∈ Shape.kept _ d.insertedWindowDims
    rw [hiw, kept_zero]; exact List.mem_singleton.mpr rfl
  unfold ScatterDims.window
  rw [dif_pos hm]
  exact val_at_one j _ (getElem_of_eq_singleton huw _ _)

theorem resultIdx?_rows (huw : d.updateWindowDims = [1]) (hiw : d.insertedWindowDims = [0])
    (hsd : d.scatterDimsToOperandDims = [0]) (hivd : d.indexVectorDim = 1) (idx : IVec ⟨2, ![E, 1]⟩ w)
    (e : Fin E) (k' : Fin D) (n : Fin N) (k : Fin D) :
    d.resultIdx? (ix2 e k') idx = some (ix2 n k) ↔ (idx (ix2 e 0)).toInt = (n.val : ℤ) ∧ k' = k := by
  rw [resultIdx?_eq_some_iff, Fin.forall_fin_two, start_row d huw hsd hivd, start_col d hsd, window_row d hiw,
    window_col d huw hiw]
  show (idx (ix2 e 0)).toInt + ((0 : ℕ) : ℤ) = (n.val : ℤ) ∧ (0 : ℤ) + ((k'.val : ℕ) : ℤ) = (k.val : ℤ) ↔ _
  rw [Fin.ext_iff]
  omega

-- Entry (n, k) of a segment sum over rows: the operand's entry plus the updates (e, k) of the positions e whose index is n.
theorem scatterAdd_rows (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![E, 1]⟩ w) (upd : (⟨2, ![E, D]⟩ : Shape).Idx → EReal)
    (n : Fin N) (k : Fin D) :
    Ideal.hostScatterAdd d x idx upd (ix2 n k)
      = x (ix2 n k) + ∑ e ∈ Finset.univ.filter (fun e : Fin E => (idx (ix2 e 0)).toInt = (n.val : ℤ)), upd (ix2 e k) := by
  unfold Ideal.hostScatterAdd
  congr 1
  have hP : ∀ j : (⟨2, ![E, D]⟩ : Shape).Idx,
      d.resultIdx? j idx = some (ix2 n k) ↔ (idx (ix2 (j 0) 0)).toInt = (n.val : ℤ) ∧ j 1 = k := fun j => by
    conv_lhs => rw [eq_ix2 j]
    exact resultIdx?_rows d huw hiw hsd hivd idx (j 0) (j 1) n k
  refine Finset.sum_bij' (fun j _ => j 0) (fun e _ => ix2 e k) ?_ ?_ ?_ ?_ ?_
  · intro j hj
    exact Finset.mem_filter.2 ⟨Finset.mem_univ _, ((hP j).1 (Finset.mem_filter.1 hj).2).1⟩
  · intro e he
    exact Finset.mem_filter.2 ⟨Finset.mem_univ _, (hP _).2 ⟨(Finset.mem_filter.1 he).2, rfl⟩⟩
  · intro j hj
    have hk := ((hP j).1 (Finset.mem_filter.1 hj).2).2
    rw [← hk]; exact (eq_ix2 j).symm
  · intro e _; rfl
  · intro j hj
    have hk := ((hP j).1 (Finset.mem_filter.1 hj).2).2
    rw [← hk]; exact congrArg upd (eq_ix2 j)

theorem host_scatterAdd_rows {φ : FTy} (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![E, 1]⟩ w) (upd : FVec Ideal ⟨2, ![E, D]⟩ φ) (n : Fin N) (k : Fin D) :
    Host.scatterAdd (F := Ideal) d x idx upd (ix2 n k)
      = x (ix2 n k) + ∑ e ∈ Finset.univ.filter (fun e : Fin E => (idx (ix2 e 0)).toInt = (n.val : ℤ)), upd (ix2 e k) :=
  scatterAdd_rows d huw hiw hsd hivd x idx upd n k

end ScatterRows

end Idealize.ShloMosaic.IndexedRows

end
-- ==== Proof.KI.Prefix.lean ====
import proofs.«159006_j88201448390851_1_alg».proof.KernelIdeal
import proofs.«159006_j88201448390851_1_alg».proof.Proof.Gen.KernelIdeal
import proofs.«159006_j88201448390851_1_alg».proof.Proof.LibIndexedRows
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.KernelIdeal
open Cert.KernelIdeal.Facts₀ Cert.KernelIdeal.Facts

variable [Cert.KernelIdeal.Facts]

def hsOf (x : FVec Ideal S100000x64 .f32) (adjv : FVec Ideal S1600000 .f32)
    (arow acol : (⟨S1600000, .i32⟩ : BufTy).Contents (Elt Ideal)) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 arow)
    (mulf (broadcastInDim S1600000x64 ![0, 1] bcast_S1600000x1_S1600000x64_0_1 (broadcastInDim S1600000x1 ![0] bcast_S1600000_S1600000x1_0 adjv))
      (Host.gather gather_S100000x64_S1600000x1_S1600000x64_1_0_n_n_0_1_164 x
        (broadcastInDim S1600000x1 ![0] bcast_S1600000_S1600000x1_0
          (select (cmpi .slt acol (broadcastInDim S1600000 ![] bcast_S_S1600000 (constantI S_ 32 0#32)))
            (addi acol (broadcastInDim S1600000 ![] bcast_S_S1600000 (constantI S_ 32 100000#32))) acol))))

def wtOf (W : FVec Ideal S64x64 .f32) : FVec Ideal S64x64 .f32 :=
  transpose S64x64 [1, 0] W transposes_S64x64_S64x64_1_0

theorem sum_real {ι : Type} (s : Finset ι) (f : ι → EReal) (hf : ∀ e ∈ s, ∃ r : ℝ, f e = (r : EReal)) :
    ∃ r : ℝ, ∑ e ∈ s, f e = (r : EReal) := by
  classical
  induction s using Finset.induction_on with
  | empty => exact ⟨0, by rw [Finset.sum_empty, EReal.coe_zero]⟩
  | insert a s ha ih =>
    obtain ⟨r, hr⟩ := hf a (Finset.mem_insert_self a s)
    obtain ⟨t, ht⟩ := ih (fun e he => hf e (Finset.mem_insert_of_mem he))
    exact ⟨r + t, by rw [Finset.sum_insert ha, hr, ht, EReal.coe_add]⟩

theorem scatterAdd_real (z : FVec Ideal S100000x64 .f32) (idx : IVec S1600000x1 32) (upd : FVec Ideal S1600000x64 .f32)
    (hz : ∀ i, ∃ r : ℝ, z i = (r : EReal)) (hu : ∀ i, ∃ r : ℝ, upd i = (r : EReal)) :
    ∀ i, ∃ r : ℝ, Host.scatterAdd scatter_S100000x64_S1600000x1_S1600000x64_1_0_0_1 z idx upd i = (r : EReal) := by
  intro i
  obtain ⟨n, k, rfl⟩ : ∃ (n : Fin 100000) (k : Fin 64), i = ix2 n k := ⟨i 0, i 1, eq_ix2 i⟩
  rw [IndexedRows.host_scatterAdd_rows scatter_S100000x64_S1600000x1_S1600000x64_1_0_0_1 rfl rfl rfl rfl z idx upd n k]
  obtain ⟨r, hr⟩ := hz (ix2 n k)
  obtain ⟨t, ht⟩ := sum_real _ (fun e : Fin 1600000 => upd (ix2 e k)) (fun e _ => hu (ix2 e k))
  exact ⟨r + t, by rw [hr, ht, EReal.coe_add]⟩

theorem hsOf_real (x : FVec Ideal S100000x64 .f32) (adjv : FVec Ideal S1600000 .f32)
    (arow acol : (⟨S1600000, .i32⟩ : BufTy).Contents (Elt Ideal))
    (hx : ∀ i, ∃ r : ℝ, x i = (r : EReal)) (ha : ∀ i, ∃ r : ℝ, adjv i = (r : EReal)) :
    ∀ i, ∃ r : ℝ, hsOf x adjv arow acol i = (r : EReal) := by
  refine scatterAdd_real _ _ _ (fun i => ⟨0, ?_⟩) (fun i => ?_)
  ·
    show Ideal.ofBits .f32 0x00000000#32 = ((0 : ℝ) : EReal)
    rw [Ideal.ofBits_zero_f32, EReal.coe_zero]
  ·
    rw [mulf_apply]
    obtain ⟨a, ha'⟩ : ∃ a : ℝ, broadcastInDim S1600000x64 ![0, 1] bcast_S1600000x1_S1600000x64_0_1
        (broadcastInDim S1600000x1 ![0] bcast_S1600000_S1600000x1_0 adjv) i = (a : EReal) := ha _
    obtain ⟨b, hb'⟩ : ∃ b : ℝ, Host.gather gather_S100000x64_S1600000x1_S1600000x64_1_0_n_n_0_1_164 x
        (broadcastInDim S1600000x1 ![0] bcast_S1600000_S1600000x1_0
          (select (cmpi .slt acol (broadcastInDim S1600000 ![] bcast_S_S1600000 (constantI S_ 32 0#32)))
            (addi acol (broadcastInDim S1600000 ![] bcast_S_S1600000 (constantI S_ 32 100000#32))) acol)) i = (b : EReal) := hx _
    exact ⟨a * b, by rw [ha', hb', EReal.coe_mul]⟩

theorem wtOf_real (W : FVec Ideal S64x64 .f32) (hW : ∀ i, ∃ r : ℝ, W i = (r : EReal)) :
    ∀ i, ∃ r : ℝ, wtOf W i = (r : EReal) := fun i =>

  hW (Shape.Transposes.src transposes_S64x64_S64x64_1_0 i)

end Cert.KernelIdeal.Val

end
-- ==== Proof.LibPlainDot.lean ====
import Idealize.ShloMosaic.PureOps.Ideal.Laws
import Idealize.ShloMosaic.Lib.ValueIdx

noncomputable section

namespace Cert.Lib.PlainDot

open Idealize.ShloMosaic Idealize.ShloMosaic.ValueIdx

variable (M K N : Nat)

theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.KI.R0Pieces.lean ====
import proofs.«159006_j88201448390851_1_alg».proof.Proof.KI.R0Body
import proofs.«159006_j88201448390851_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open scoped BigOperators

section
variable {F : FTy → Type} [FloatOps F]

theorem origin2 : (![0, 0] : Fin 2 → Nat) = fun _ => 0 := funext fun a => by fin_cases a <;> rfl

variable (c : Dev nD) (i : grid0.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole)
  (x0 x1 : Vec F S2000x64 .f32) (x2 : Vec F S64x64 .f32) (x3 : Vec F S1x64 .f32) (xs0 xs1 : Vec F S1x64 .f32)

-- The pieces each case's run leaves are the body's own arithmetic on the blocks it loaded.
section
variable (hc0 : cond0_0 i) (hc1 : ¬cond0_1 i)
theorem pieceA_4 :
    View.canon (kernelRun0_A c i arg1 harg1 arg2 harg2 arg3 harg3 arg4 harg4 arg5 harg5 arg6 harg6 arg7 harg7 arg8 harg8 arg9 harg9 hc0 hc1 x0 x1 x2 x3).1 = k0_pay3 x0 x2 x3 x1 := by
  unfold kernelRun0_A
  dsimp only
  sl_unfold_words
  rw [View.canon_unit_zero origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
theorem pieceA_s0 :
    View.canon (kernelRun0_A c i arg1 harg1 arg2 harg2 arg3 harg3 arg4 harg4 arg5 harg5 arg6 harg6 arg7 harg7 arg8 harg8 arg9 harg9 hc0 hc1 x0 x1 x2 x3).2.1 = k0_pay4 x0 x2 x3 x1 (k0_pay1 (F := F)) := by
  unfold kernelRun0_A
  dsimp only
  sl_unfold_words
  rw [View.canon_cons_unit_zero (S := S1x64) origin2, View.readCov_unit_zero (S := S1x64) _ origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
theorem pieceA_s1 :
    View.canon (kernelRun0_A c i arg1 harg1 arg2 harg2 arg3 harg3 arg4 harg4 arg5 harg5 arg6 harg6 arg7 harg7 arg8 harg8 arg9 harg9 hc0 hc1 x0 x1 x2 x3).2.2.1 = k0_pay5 x0 x2 x3 x1 (k0_pay2 (F := F)) := by
  unfold kernelRun0_A
  dsimp only
  sl_unfold_words
  rw [View.canon_cons_unit_zero (S := S1x64) origin2, View.readCov_unit_zero (S := S1x64) _ origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
end
section
variable (hc0 : ¬cond0_0 i) (hc1 : ¬cond0_1 i)
theorem pieceB_4 :
    View.canon (kernelRun0_B c i arg1 harg1 arg2 harg2 arg3 harg3 arg4 harg4 arg5 harg5 arg6 harg6 arg7 harg7 arg8 harg8 arg9 harg9 hc0 hc1 x0 x1 x2 x3 xs0 xs1).1 = k0_pay3 x0 x2 x3 x1 := by
  unfold kernelRun0_B
  dsimp only
  sl_unfold_words
  rw [View.canon_unit_zero origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
theorem pieceB_s0 :
    View.canon (kernelRun0_B c i arg1 harg1 arg2 harg2 arg3 harg3 arg4 harg4 arg5 harg5 arg6 harg6 arg7 harg7 arg8 harg8 arg9 harg9 hc0 hc1 x0 x1 x2 x3 xs0 xs1).2.1 = k0_pay4 x0 x2 x3 x1 xs0 := by
  unfold kernelRun0_B
  dsimp only
  sl_unfold_words
  rw [View.canon_unit_zero origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
theorem pieceB_s1 :
    View.canon (kernelRun0_B c i arg1 harg1 arg2 harg2 arg3 harg3 arg4 harg4 arg5 harg5 arg6 harg6 arg7 harg7 arg8 harg8 arg9 harg9 hc0 hc1 x0 x1 x2 x3 xs0 xs1).2.2.1 = k0_pay5 x0 x2 x3 x1 xs1 := by
  unfold kernelRun0_B
  dsimp only
  sl_unfold_words
  rw [View.canon_unit_zero origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
end
section
variable (hc0 : ¬cond0_0 i) (hc1 : cond0_1 i)
theorem pieceC_4 :
    View.canon (kernelRun0_C c i arg1 harg1 arg2 harg2 arg3 harg3 arg4 harg4 arg5 harg5 arg6 harg6 arg7 harg7 arg8 harg8 arg9 harg9 hc0 hc1 x0 x1 x2 x3 xs0 xs1).1 = k0_pay3 x0 x2 x3 x1 := by
  unfold kernelRun0_C
  dsimp only
  sl_unfold_words
  rw [View.canon_unit_zero origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
theorem pieceC_5 :
    View.canon (kernelRun0_C c i arg1 harg1 arg2 harg2 arg3 harg3 arg4 harg4 arg5 harg5 arg6 harg6 arg7 harg7 arg8 harg8 arg9 harg9 hc0 hc1 x0 x1 x2 x3 xs0 xs1).2.1 = k0_pay4 x0 x2 x3 x1 xs0 := by
  unfold kernelRun0_C
  dsimp only
  sl_unfold_words
  rw [View.canon_unit_zero origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
theorem pieceC_6 :
    View.canon (kernelRun0_C c i arg1 harg1 arg2 harg2 arg3 harg3 arg4 harg4 arg5 harg5 arg6 harg6 arg7 harg7 arg8 harg8 arg9 harg9 hc0 hc1 x0 x1 x2 x3 xs0 xs1).2.2.1 = k0_pay5 x0 x2 x3 x1 xs1 := by
  unfold kernelRun0_C
  dsimp only
  sl_unfold_words
  rw [View.canon_unit_zero origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
theorem pieceC_s0 :
    View.canon (kernelRun0_C c i arg1 harg1 arg2 harg2 arg3 harg3 arg4 harg4 arg5 harg5 arg6 harg6 arg7 harg7 arg8 harg8 arg9 harg9 hc0 hc1 x0 x1 x2 x3 xs0 xs1).2.2.2.1 = k0_pay4 x0 x2 x3 x1 xs0 := by
  unfold kernelRun0_C
  dsimp only
  sl_unfold_words
  rw [View.canon_unit_zero origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
theorem pieceC_s1 :
    View.canon (kernelRun0_C c i arg1 harg1 arg2 harg2 arg3 harg3 arg4 harg4 arg5 harg5 arg6 harg6 arg7 harg7 arg8 harg8 arg9 harg9 hc0 hc1 x0 x1 x2 x3 xs0 xs1).2.2.2.2.1 = k0_pay5 x0 x2 x3 x1 xs1 := by
  unfold kernelRun0_C
  dsimp only
  sl_unfold_words
  rw [View.canon_unit_zero origin2]
  simp only [View.readAt_eq_ld, harg1.read_unread, harg2.read_unread, harg3.read_unread, harg4.read_unread, harg8.read_unread, harg9.read_unread,
    View.ld_unit_zero (S := S2000x64) origin2, View.ld_unit_zero (S := S64x64) origin2, View.ld_unit_zero (S := S1x64) origin2, View.readCov_unit_zero (S := S1x64) _ origin2]
end

end

section
variable {F : FTy → Type} [FloatOps F] (c : Dev nD) (t : Fin cfg0.N) (x0 x1 : Vec F S2000x64 .f32) (x2 : Vec F S64x64 .f32) (x3 : Vec F S1x64 .f32)

-- So each case's five buffers, in the body's arithmetic.
theorem outsA_eq (h0 : t.val % 50 = 0) : outsA c t x0 x1 x2 x3 h0
    = (k0_pay3 x0 x2 x3 x1, idleRow, idleRow, k0_pay4 x0 x2 x3 x1 (k0_pay1 (F := F)), k0_pay5 x0 x2 x3 x1 (k0_pay2 (F := F))) := by
  unfold outsA runA; simp only [pieceA_4, pieceA_s0, pieceA_s1]
theorem outsB_eq (h0 : ¬t.val % 50 = 0) (h1 : ¬t.val % 50 = 49) (xs0 xs1 : Vec F S1x64 .f32) : outsB c t x0 x1 x2 x3 h0 h1 xs0 xs1
    = (k0_pay3 x0 x2 x3 x1, idleRow, idleRow, k0_pay4 x0 x2 x3 x1 xs0, k0_pay5 x0 x2 x3 x1 xs1) := by
  unfold outsB runB; simp only [pieceB_4, pieceB_s0, pieceB_s1]
theorem outsC_eq (h1 : t.val % 50 = 49) (xs0 xs1 : Vec F S1x64 .f32) : outsC c t x0 x1 x2 x3 h1 xs0 xs1
    = (k0_pay3 x0 x2 x3 x1, k0_pay4 x0 x2 x3 x1 xs0, k0_pay5 x0 x2 x3 x1 xs1, k0_pay4 x0 x2 x3 x1 xs0, k0_pay5 x0 x2 x3 x1 xs1) := by
  unfold outsC runC; simp only [pieceC_4, pieceC_5, pieceC_6, pieceC_s0, pieceC_s1]

end

theorem row_of_vec_apply (v : FVec Ideal S64 .f32) (d : Fin 64) :
    shapeCast S1x64 v shapeCasts_S64_S1x64 (ix2 0 d) = v (ix1 d) :=
  (shapeCast_addUnit_apply ![64] v shapeCasts_S64_S1x64 (ix2 0 d)).trans
    (congrArg v (funext fun a => by match a with | ⟨0, _⟩ => rfl))

theorem colsum_apply (y : FVec Ideal S2000x64 .f32) (hacc : (0x00000000#32 : BitVec 32) = 0x00000000#32) (d : Fin 64) :
    multiReduction (F := Ideal) .add [0] S64 y 0x00000000#32 reduces_S2000x64_S64 (.inl rfl) hacc (ix1 d)
      = ∑ r : Fin 2000, (y (ix2 r d) : EReal) := by
  refine (Ideal.multiReduction_add_single y 0x00000000#32 reduces_S2000x64_S64 (.inl rfl) hacc (ix1 d)).trans ?_
  refine Finset.sum_congr rfl fun r _ => congrArg y ?_
  funext a
  match a with
  | ⟨0, _⟩ => rfl
  | ⟨1, _⟩ => rfl

theorem bias_bcast_apply (b : FVec Ideal S1x64 .f32) (r : Fin 2000) (d : Fin 64) :
    broadcastTo S2000x64 b broadcasts_S1x64_S2000x64 (ix2 r d) = b (ix2 0 d) :=
  broadcastTo_apply b broadcasts_S1x64_S2000x64 (ix2 r d) (ix2 0 d) (fun a => by
    match a with
    | ⟨0, _⟩ => rfl
    | ⟨1, _⟩ => rfl)

theorem pay1_apply (d : Fin 64) : k0_pay1 (F := Ideal) (ix2 0 d) = 0 := by
  unfold k0_pay1
  rw [shapeCast_self]
  exact Ideal.ofBits_zero_f32
theorem pay2_apply (d : Fin 64) : k0_pay2 (F := Ideal) (ix2 0 d) = 0 := by
  unfold k0_pay2
  rw [shapeCast_self]
  exact Ideal.ofBits_zero_f32

theorem pay3_apply (x0 : Vec Ideal S2000x64 .f32) (x2 : Vec Ideal S64x64 .f32) (x3 : Vec Ideal S1x64 .f32) (x1 : Vec Ideal S2000x64 .f32)
    (r : Fin 2000) (d : Fin 64) :
    k0_pay3 (F := Ideal) x0 x2 x3 x1 (ix2 r d)
      = (∑ k : Fin 64, (x0 (ix2 r k) : EReal) * x2 (ix2 k d)) + x3 (ix2 0 d) + x1 (ix2 r d) := by
  unfold k0_pay3
  simp only [shapeCast_self]
  rw [addf_apply, addf_apply, bias_bcast_apply]
  exact congrArg (fun z : EReal => z + x3 (ix2 0 d) + x1 (ix2 r d))
    (Cert.Lib.PlainDot.matmul_zero_apply 2000 64 64 none (truncf .bf16 x0 bitsLt_bf16_f32) (truncf .bf16 x2 bitsLt_bf16_f32) r d)

theorem pay4_apply (x0 : Vec Ideal S2000x64 .f32) (x2 : Vec Ideal S64x64 .f32) (x3 : Vec Ideal S1x64 .f32) (x1 : Vec Ideal S2000x64 .f32)
    (xs : Vec Ideal S1x64 .f32) (d : Fin 64) :
    k0_pay4 (F := Ideal) x0 x2 x3 x1 xs (ix2 0 d)
      = (xs (ix2 0 d) : EReal) + ∑ r : Fin 2000, (k0_pay3 (F := Ideal) x0 x2 x3 x1 (ix2 r d) : EReal) := by
  unfold k0_pay4
  rw [shapeCast_self, addf_apply, row_of_vec_apply, colsum_apply]

theorem pay5_apply (x0 : Vec Ideal S2000x64 .f32) (x2 : Vec Ideal S64x64 .f32) (x3 : Vec Ideal S1x64 .f32) (x1 : Vec Ideal S2000x64 .f32)
    (xs : Vec Ideal S1x64 .f32) (d : Fin 64) :
    k0_pay5 (F := Ideal) x0 x2 x3 x1 xs (ix2 0 d)
      = (xs (ix2 0 d) : EReal) + ∑ r : Fin 2000, (k0_pay3 (F := Ideal) x0 x2 x3 x1 (ix2 r d) : EReal) * k0_pay3 (F := Ideal) x0 x2 x3 x1 (ix2 r d) := by
  unfold k0_pay5
  rw [shapeCast_self, addf_apply, row_of_vec_apply, colsum_apply]
  rfl

end Cert.KernelIdeal.Val

end
-- ==== Proof.Spec.lean ====
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spec

open Idealize.ShloMosaic Idealize.ShloMosaic.ValueIdx

def cN : EReal := Ideal.ofBits .f32 0x47C35000#32

def cEps : EReal := Ideal.ofBits .f32 0x3727C5AC#32

def act (hs : (⟨2, ![100000, 64]⟩ : Shape).Idx → EReal) (wt : (⟨2, ![64, 64]⟩ : Shape).Idx → EReal)
    (b : (⟨1, ![64]⟩ : Shape).Idx → EReal) (x : (⟨2, ![100000, 64]⟩ : Shape).Idx → EReal)
    (n : Fin 100000) (d : Fin 64) : EReal :=
  (∑ k : Fin 64, hs (ix2 n k) * wt (ix2 k d)) + b (ix1 d) + x (ix2 n d)

def colSum (h : Fin 100000 → Fin 64 → EReal) (d : Fin 64) : EReal := ∑ n : Fin 100000, h n d
def colSumSq (h : Fin 100000 → Fin 64 → EReal) (d : Fin 64) : EReal := ∑ n : Fin 100000, h n d * h n d

def normK (h : Fin 100000 → Fin 64 → EReal) (g be : Fin 64 → EReal) (n : Fin 100000) (d : Fin 64) : EReal :=
  max (((h n d - Ideal.div (colSum h d) cN)
        * Ideal.rsqrt ((Ideal.div (colSumSq h d) cN - Ideal.div (colSum h d) cN * Ideal.div (colSum h d) cN) + cEps))
      * g d + be d) 0

def meanR (h : Fin 100000 → Fin 64 → EReal) (d : Fin 64) : EReal := Ideal.div (0 + ∑ n : Fin 100000, h n d) cN

def normR (h : Fin 100000 → Fin 64 → EReal) (g be : Fin 64 → EReal) (n : Fin 100000) (d : Fin 64) : EReal :=
  max (((h n d - meanR h d)
        * Ideal.rsqrt (Ideal.div (0 + ∑ n' : Fin 100000, (h n' d - meanR h d) * (h n' d - meanR h d)) cN + cEps))
      * g d + be d) 0

theorem cN_eq : cN = ((100000 : ℝ) : EReal) := by
  unfold cN
  simp [Ideal.ofBits, Ideal.ieee, -EReal.coe_mul]; norm_num

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem var_real (r : Fin 100000 → ℝ) :
    (∑ n, r n * r n) * (1 / 100000) - ((∑ n, r n) * (1 / 100000)) * ((∑ n, r n) * (1 / 100000))
      = (∑ n, (r n - (∑ n, r n) * (1 / 100000)) * (r n - (∑ n, r n) * (1 / 100000))) * (1 / 100000) := by
  generalize hμ : (∑ n, r n) * (1 / 100000 : ℝ) = μ
  have hS : (∑ n, r n) = 100000 * μ := by rw [← hμ]; ring
  have key : (∑ n, (r n - μ) * (r n - μ)) = (∑ n, r n * r n) - 2 * μ * (∑ n, r n) + 100000 * (μ * μ) := by
    have e : ∀ n, (r n - μ) * (r n - μ) = r n * r n - 2 * μ * r n + μ * μ := fun n => by ring
    rw [Finset.sum_congr rfl (fun n _ => e n), Finset.sum_add_distrib, Finset.sum_sub_distrib, ← Finset.mul_sum,
      Finset.sum_const, Finset.card_univ, Fintype.card_fin, nsmul_eq_mul]
    norm_num
  rw [key, hS]; ring

theorem normK_eq_normR (h : Fin 100000 → Fin 64 → EReal) (hfin : ∀ n d, ∃ r : ℝ, h n d = (r : EReal))
    (g be : Fin 64 → EReal) (n : Fin 100000) (d : Fin 64) : normK h g be n d = normR h g be n d := by
  choose r hr using hfin
  have hN : (100000 : ℝ) ≠ 0 := by norm_num

  have hsum : (∑ n : Fin 100000, h n d) = ((∑ n, r n d : ℝ) : EReal) := by
    rw [coe_sum]; exact Finset.sum_congr rfl (fun n _ => hr n d)
  have hsq : (∑ n : Fin 100000, h n d * h n d) = ((∑ n, r n d * r n d : ℝ) : EReal) := by
    rw [coe_sum]; exact Finset.sum_congr rfl (fun n _ => by rw [hr n d, EReal.coe_mul])

  have hmeanK : Ideal.div (colSum h d) cN = meanR h d := by
    unfold meanR colSum; rw [zero_add]
  have hmean : meanR h d = (((∑ n, r n d) * (1 / 100000) : ℝ) : EReal) := by
    unfold meanR; rw [zero_add, hsum, cN_eq, Ideal.div_coe hN, ← EReal.coe_mul]

  have hdev : (∑ n' : Fin 100000, (h n' d - meanR h d) * (h n' d - meanR h d))
      = ((∑ n', (r n' d - (∑ n, r n d) * (1 / 100000)) * (r n' d - (∑ n, r n d) * (1 / 100000)) : ℝ) : EReal) := by
    rw [coe_sum]
    exact Finset.sum_congr rfl (fun n' _ => by rw [hr n' d, hmean, ← EReal.coe_sub, ← EReal.coe_mul])

  have harg : Ideal.div (colSumSq h d) cN - Ideal.div (colSum h d) cN * Ideal.div (colSum h d) cN
      = Ideal.div (0 + ∑ n' : Fin 100000, (h n' d - meanR h d) * (h n' d - meanR h d)) cN := by
    rw [hmeanK, hdev, zero_add, hmean]
    unfold colSumSq
    rw [hsq, cN_eq, Ideal.div_coe hN, Ideal.div_coe hN, ← EReal.coe_mul, ← EReal.coe_mul, ← EReal.coe_mul,
      ← EReal.coe_sub, var_real (fun n => r n d)]
  unfold normK normR
  rw [harg, hmeanK]

theorem sum_blocks {M : Type} [AddCommMonoid M] (f : Fin 100000 → M) :
    (∑ s : Fin 50, ∑ r : Fin 2000, f ⟨2000 * s.val + r.val, by have := s.isLt; have := r.isLt; omega⟩) = ∑ n : Fin 100000, f n := by

  let e : Fin 50 × Fin 2000 ≃ Fin 100000 := finProdFinEquiv.trans (finCongr (by norm_num))
  calc (∑ s : Fin 50, ∑ r : Fin 2000, f ⟨2000 * s.val + r.val, by have := s.isLt; have := r.isLt; omega⟩)
      = ∑ p : Fin 50 × Fin 2000, f ⟨2000 * p.1.val + p.2.val, by have := p.1.isLt; have := p.2.isLt; omega⟩ :=
        (Fintype.sum_prod_type' (fun (s : Fin 50) (r : Fin 2000) =>
          f ⟨2000 * s.val + r.val, by have := s.isLt; have := r.isLt; omega⟩)).symm
    _ = ∑ n : Fin 100000, f n :=
        Fintype.sum_equiv e _ _ (fun p => congrArg f (Fin.ext (by simp [e, finProdFinEquiv]; omega)))

theorem act_real (hs : (⟨2, ![100000, 64]⟩ : Shape).Idx → EReal) (wt : (⟨2, ![64, 64]⟩ : Shape).Idx → EReal)
    (b : (⟨1, ![64]⟩ : Shape).Idx → EReal) (x : (⟨2, ![100000, 64]⟩ : Shape).Idx → EReal)
    (hhs : ∀ i, ∃ r : ℝ, hs i = (r : EReal)) (hwt : ∀ i, ∃ r : ℝ, wt i = (r : EReal))
    (hb : ∀ i, ∃ r : ℝ, b i = (r : EReal)) (hx : ∀ i, ∃ r : ℝ, x i = (r : EReal)) (n : Fin 100000) (d : Fin 64) :
    ∃ r : ℝ, act hs wt b x n d = (r : EReal) := by
  choose rs hrs using hhs
  choose rw hrw using hwt
  choose rb hrb using hb
  choose rx hrx using hx
  refine ⟨(∑ k : Fin 64, rs (ix2 n k) * rw (ix2 k d)) + rb (ix1 d) + rx (ix2 n d), ?_⟩
  unfold act
  rw [EReal.coe_add, EReal.coe_add, coe_sum, hrb, hrx]
  congr 2
  exact Finset.sum_congr rfl (fun k _ => by rw [hrs, hrw, EReal.coe_mul])

end Cert.Spec

end
-- ==== Proof.KI.R0Value.lean ====
import proofs.«159006_j88201448390851_1_alg».proof.Proof.KI.R0Pieces
import proofs.«159006_j88201448390851_1_alg».proof.Proof.Spec
import proofs.«159006_j88201448390851_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open scoped BigOperators

def act2 (hs : S100000x64.Idx → EReal) (wt : S64x64.Idx → EReal) (b2 : S1x64.Idx → EReal) (x : S100000x64.Idx → EReal)
    (n : Fin 100000) (d : Fin 64) : EReal :=
  (∑ k : Fin 64, hs (ix2 n k) * wt (ix2 k d)) + b2 (ix2 0 d) + x (ix2 n d)

variable (V : (c : Dev nD) → (b : Ref sig .tc) → Buf (Elt Ideal) ((c : Thread nD τ).loc b))

abbrev e0_hs (c : Dev nD) : S100000x64.Idx → EReal := V c main_v12
abbrev e0_x (c : Dev nD) : S100000x64.Idx → EReal := V c main_arg0
abbrev e0_wt (c : Dev nD) : S64x64.Idx → EReal := V c main_v13
abbrev e0_b2 (c : Dev nD) : S1x64.Idx → EReal := V c main_v14
abbrev arr4 (c : Dev nD) : S100000x64.Idx → EReal := (dat0 (F := Ideal) V c).arrAt 4 cfg0.N
abbrev arr5 (c : Dev nD) : S1x64.Idx → EReal := (dat0 (F := Ideal) V c).arrAt 5 cfg0.N
abbrev arr6 (c : Dev nD) : S1x64.Idx → EReal := (dat0 (F := Ideal) V c).arrAt 6 cfg0.N

abbrev hK (c : Dev nD) (n : Fin 100000) (d : Fin 64) : EReal := act2 (e0_hs V c) (e0_wt V c) (e0_b2 V c) (e0_x V c) n d

namespace R0

theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

abbrev bHs (c : Dev nD) (t : Fin cfg0.N) : S2000x64.Idx → EReal := iblk0 (F := Ideal) V c 0 t
abbrev bX (c : Dev nD) (t : Fin cfg0.N) : S2000x64.Idx → EReal := iblk0 (F := Ideal) V c 1 t
abbrev bWt (c : Dev nD) (t : Fin cfg0.N) : S64x64.Idx → EReal := iblk0 (F := Ideal) V c 2 t
abbrev bB2 (c : Dev nD) (t : Fin cfg0.N) : S1x64.Idx → EReal := iblk0 (F := Ideal) V c 3 t

theorem bHs_apply (c : Dev nD) (t : Fin cfg0.N) (r : Fin 2000) (k : Fin 64) (n : Fin 100000) (hn : n.val = 2000 * t.val + r.val) :
    bHs V c t (ix2 r k) = e0_hs V c (ix2 n k) := by
  obtain ⟨e0, e1, -⟩ := idx0 t
  show V c main_v12 (((cfg0.win 0).blk t).view.emb (ix2 r k)) = V c main_v12 (ix2 n k)
  refine congrArg (V c main_v12) ?_
  funext a; apply Fin.ext
  match a with
  | ⟨0, _⟩ => show win0_0.index t (0 : Fin 2) * 2000 + 1 * r.val = n.val; omega
  | ⟨1, _⟩ => show win0_0.index t (1 : Fin 2) * 64 + 1 * k.val = k.val; omega

theorem bX_apply (c : Dev nD) (t : Fin cfg0.N) (r : Fin 2000) (k : Fin 64) (n : Fin 100000) (hn : n.val = 2000 * t.val + r.val) :
    bX V c t (ix2 r k) = e0_x V c (ix2 n k) := by
  obtain ⟨-, -, e0, e1, -⟩ := idx0 t
  show V c main_arg0 (((cfg0.win 1).blk t).view.emb (ix2 r k)) = V c main_arg0 (ix2 n k)
  refine congrArg (V c main_arg0) ?_
  funext a; apply Fin.ext
  match a with
  | ⟨0, _⟩ => show win0_1.index t (0 : Fin 2) * 2000 + 1 * r.val = n.val; omega
  | ⟨1, _⟩ => show win0_1.index t (1 : Fin 2) * 64 + 1 * k.val = k.val; omega

theorem bWt_apply (c : Dev nD) (t : Fin cfg0.N) (k : Fin 64) (d : Fin 64) :
    bWt V c t (ix2 k d) = e0_wt V c (ix2 k d) := by
  obtain ⟨-, -, -, -, e0, e1, -⟩ := idx0 t
  show V c main_v13 (((cfg0.win 2).blk t).view.emb (ix2 k d)) = V c main_v13 (ix2 k d)
  refine congrArg (V c main_v13) ?_
  funext a; apply Fin.ext
  match a with
  | ⟨0, _⟩ => show win0_2.index t (0 : Fin 2) * 64 + 1 * k.val = k.val; omega
  | ⟨1, _⟩ => show win0_2.index t (1 : Fin 2) * 64 + 1 * d.val = d.val; omega

theorem bB2_apply (c : Dev nD) (t : Fin cfg0.N) (d : Fin 64) :
    bB2 V c t (ix2 0 d) = e0_b2 V c (ix2 0 d) := by
  obtain ⟨-, -, -, -, -, -, e0, e1, -⟩ := idx0 t
  show V c main_v14 (((cfg0.win 3).blk t).view.emb (ix2 0 d)) = V c main_v14 (ix2 0 d)
  refine congrArg (V c main_v14) ?_
  funext a; apply Fin.ext
  match a with
  | ⟨0, _⟩ => show win0_3.index t (0 : Fin 2) * 1 + 1 * 0 = 0; omega
  | ⟨1, _⟩ => show win0_3.index t (1 : Fin 2) * 64 + 1 * d.val = d.val; omega

theorem pay3_blk_apply (c : Dev nD) (t : Fin cfg0.N) (r : Fin 2000) (d : Fin 64) (n : Fin 100000) (hn : n.val = 2000 * t.val + r.val) :
    (k0_pay3 (F := Ideal) (iblk0 V c 0 t) (iblk0 V c 2 t) (iblk0 V c 3 t) (iblk0 V c 1 t) : S2000x64.Idx → EReal) (ix2 r d) = hK V c n d := by
  refine (pay3_apply (iblk0 V c 0 t) (iblk0 V c 2 t) (iblk0 V c 3 t) (iblk0 V c 1 t) r d).trans ?_
  show (∑ k : Fin 64, bHs V c t (ix2 r k) * bWt V c t (ix2 k d)) + bB2 V c t (ix2 0 d) + bX V c t (ix2 r d)
    = (∑ k : Fin 64, e0_hs V c (ix2 n k) * e0_wt V c (ix2 k d)) + e0_b2 V c (ix2 0 d) + e0_x V c (ix2 n d)
  rw [bB2_apply V c t d, bX_apply V c t r d n hn]
  refine congrArg (fun z : EReal => z + e0_b2 V c (ix2 0 d) + e0_x V c (ix2 n d)) ?_
  exact Finset.sum_congr rfl (fun k _ => by rw [bHs_apply V c t r k n hn, bWt_apply V c t k d])

-- The five buffers after point t in the body's arithmetic, by the point's case.
theorem outs_first (c : Dev nD) (t : Fin cfg0.N) (h0 : t.val % 50 = 0) : outsAt0 (F := Ideal) V c t.val t.isLt
    = (k0_pay3 (iblk0 V c 0 t) (iblk0 V c 2 t) (iblk0 V c 3 t) (iblk0 V c 1 t), idleRow, idleRow, k0_pay4 (iblk0 V c 0 t) (iblk0 V c 2 t) (iblk0 V c 3 t) (iblk0 V c 1 t) (k0_pay1 (F := Ideal)), k0_pay5 (iblk0 V c 0 t) (iblk0 V c 2 t) (iblk0 V c 3 t) (iblk0 V c 1 t) (k0_pay2 (F := Ideal))) := by
  rw [outsAt0_A V c t h0]; exact outsA_eq (F := Ideal) c t (iblk0 V c 0 t) (iblk0 V c 1 t) (iblk0 V c 2 t) (iblk0 V c 3 t) h0
theorem outs_mid (c : Dev nD) (t : Fin cfg0.N) (h0 : ¬t.val % 50 = 0) (h1 : ¬t.val % 50 = 49) : outsAt0 (F := Ideal) V c t.val t.isLt
    = (k0_pay3 (iblk0 V c 0 t) (iblk0 V c 2 t) (iblk0 V c 3 t) (iblk0 V c 1 t), idleRow, idleRow, k0_pay4 (iblk0 V c 0 t) (iblk0 V c 2 t) (iblk0 V c 3 t) (iblk0 V c 1 t) (prev0 V c t).2.2.2.1, k0_pay5 (iblk0 V c 0 t) (iblk0 V c 2 t) (iblk0 V c 3 t) (iblk0 V c 1 t) (prev0 V c t).2.2.2.2) := by
  rw [outsAt0_B V c t h0 h1]; exact outsB_eq (F := Ideal) c t (iblk0 V c 0 t) (iblk0 V c 1 t) (iblk0 V c 2 t) (iblk0 V c 3 t) h0 h1 _ _
theorem outs_last (c : Dev nD) (t : Fin cfg0.N) (h1 : t.val % 50 = 49) : outsAt0 (F := Ideal) V c t.val t.isLt
    = (k0_pay3 (iblk0 V c 0 t) (iblk0 V c 2 t) (iblk0 V c 3 t) (iblk0 V c 1 t), k0_pay4 (iblk0 V c 0 t) (iblk0 V c 2 t) (iblk0 V c 3 t) (iblk0 V c 1 t) (prev0 V c t).2.2.2.1, k0_pay5 (iblk0 V c 0 t) (iblk0 V c 2 t) (iblk0 V c 3 t) (iblk0 V c 1 t) (prev0 V c t).2.2.2.2, k0_pay4 (iblk0 V c 0 t) (iblk0 V c 2 t) (iblk0 V c 3 t) (iblk0 V c 1 t) (prev0 V c t).2.2.2.1, k0_pay5 (iblk0 V c 0 t) (iblk0 V c 2 t) (iblk0 V c 3 t) (iblk0 V c 1 t) (prev0 V c t).2.2.2.2) := by
  rw [outsAt0_C V c t h1]; exact outsC_eq (F := Ideal) c t (iblk0 V c 0 t) (iblk0 V c 1 t) (iblk0 V c 2 t) (iblk0 V c 3 t) h1 _ _

theorem outs_act_eq (c : Dev nD) (t : Fin cfg0.N) :
    (outsAt0 (F := Ideal) V c t.val t.isLt).1 = k0_pay3 (iblk0 V c 0 t) (iblk0 V c 2 t) (iblk0 V c 3 t) (iblk0 V c 1 t) := by
  by_cases h0 : t.val % 50 = 0
  · rw [outs_first V c t h0]
  · by_cases h1 : t.val % 50 = 49
    · rw [outs_last V c t h1]
    · rw [outs_mid V c t h0 h1]

abbrev G4 (c : Dev nD) : S100000x64.Idx → EReal := fun i => hK V c (i 0) (i 1)

theorem flushed4_eq (c : Dev nD) (t : Fin cfg0.N) :
    (dat0 (F := Ideal) V c).flushed 4 t = ((cfg0.win 4).blk t).view.read (Elt Ideal) (G4 V c) := by
  show (cfg0.win 4).cut (grid0.coords t) ((dat0 (F := Ideal) V c).after 4 t) = _
  rw [after0_4, outs_act_eq V c t]
  have hN : t.val < 50 := lt_of_lt_of_eq t.isLt (show cfg0.N = 50 from N_0)
  obtain ⟨-, -, -, -, -, -, -, -, e0, e1, -⟩ := idx0 t
  funext (j : S2000x64.Idx)
  obtain ⟨r, d, rfl⟩ : ∃ (r : Fin 2000) (d : Fin 64), j = ix2 r d := ⟨j 0, j 1, eq_ix2 j⟩
  have hr := r.isLt
  have hemb : (((cfg0.win 4).blk t).view.emb (ix2 r d) : S100000x64.Idx) = ix2 (⟨2000 * t.val + r.val, by omega⟩ : Fin 100000) d := by
    funext a; apply Fin.ext
    match a with
    | ⟨0, _⟩ => show win0_4.index t (0 : Fin 2) * 2000 + 1 * r.val = 2000 * t.val + r.val; omega
    | ⟨1, _⟩ => show win0_4.index t (1 : Fin 2) * 64 + 1 * d.val = d.val; omega
  show (k0_pay3 (F := Ideal) (iblk0 V c 0 t) (iblk0 V c 2 t) (iblk0 V c 3 t) (iblk0 V c 1 t) : S2000x64.Idx → EReal) (ix2 r d) = G4 V c (((cfg0.win 4).blk t).view.emb (ix2 r d))
  rw [hemb]
  exact pay3_blk_apply V c t r d ⟨2000 * t.val + r.val, by omega⟩ rfl

theorem mem_blk4 (t : Fin cfg0.N) (i : S100000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v17_0).slice (win0_4.rect t)).set ↔ _
  rw [View.set_slice_whole, Rect.mem_set_unit]
  exact Iff.rfl

theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hlt : (i 0).val / 2000 < cfg0.N := by rw [show cfg0.N = 50 from N_0]; omega
  refine ⟨⟨(i 0).val / 2000, hlt⟩, flush0_4 _, ?_⟩
  rw [mem_blk4]
  obtain ⟨-, -, -, -, -, -, -, -, e0, e1, -⟩ := idx0 ⟨(i 0).val / 2000, hlt⟩
  intro a
  match a with
  | ⟨0, _⟩ =>
    show win0_4.index ⟨(i 0).val / 2000, hlt⟩ (0 : Fin 2) * 2000 ≤ (i 0).val ∧ (i 0).val < win0_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, hlt⟩ (1 : Fin 2) * 64 ≤ (i 1).val ∧ (i 1).val < win0_4.index ⟨(i 0).val / 2000, hlt⟩ (1 : Fin 2) * 64 + 64
    rw [e1]; omega

theorem final4 (c : Dev nD) : arr4 V c = G4 V c :=
  (dat0 (F := Ideal) V c).arrAt_eq_of_cover 4 (G4 V c) (fun t _ => flushed4_eq V c t) cover4

def blockSum (f : Fin 100000 → EReal) (s : ℕ) : EReal :=
  if h : s < 50 then ∑ r : Fin 2000, f ⟨2000 * s + r.val, by have := r.isLt; omega⟩ else 0

theorem sum_blockSum (f : Fin 100000 → EReal) : ∑ s ∈ Finset.range 50, blockSum f s = ∑ n : Fin 100000, f n := by
  rw [← Cert.Spec.sum_blocks f, Finset.sum_range]
  refine Finset.sum_congr rfl (fun s _ => ?_)
  unfold blockSum; rw [dif_pos s.isLt]

theorem pay4_blk_apply (c : Dev nD) (t : Fin cfg0.N) (xs : Vec Ideal S1x64 .f32) (d : Fin 64) :
    (k0_pay4 (F := Ideal) (iblk0 V c 0 t) (iblk0 V c 2 t) (iblk0 V c 3 t) (iblk0 V c 1 t) xs : S1x64.Idx → EReal) (ix2 0 d)
      = (xs (ix2 0 d) : EReal) + blockSum (fun m => hK V c m d) t.val := by
  have hN : t.val < 50 := lt_of_lt_of_eq t.isLt (show cfg0.N = 50 from N_0)
  refine (pay4_apply (iblk0 V c 0 t) (iblk0 V c 2 t) (iblk0 V c 3 t) (iblk0 V c 1 t) xs d).trans ?_
  unfold blockSum; rw [dif_pos hN]
  refine congrArg (fun z : EReal => (xs (ix2 0 d) : EReal) + z) ?_
  exact Finset.sum_congr rfl (fun r _ => pay3_blk_apply V c t r d ⟨2000 * t.val + r.val, by have := r.isLt; omega⟩ rfl)

theorem pay5_blk_apply (c : Dev nD) (t : Fin cfg0.N) (xs : Vec Ideal S1x64 .f32) (d : Fin 64) :
    (k0_pay5 (F := Ideal) (iblk0 V c 0 t) (iblk0 V c 2 t) (iblk0 V c 3 t) (iblk0 V c 1 t) xs : S1x64.Idx → EReal) (ix2 0 d)
      = (xs (ix2 0 d) : EReal) + blockSum (fun m => hK V c m d * hK V c m d) t.val := by
  have hN : t.val < 50 := lt_of_lt_of_eq t.isLt (show cfg0.N = 50 from N_0)
  refine (pay5_apply (iblk0 V c 0 t) (iblk0 V c 2 t) (iblk0 V c 3 t) (iblk0 V c 1 t) xs d).trans ?_
  unfold blockSum; rw [dif_pos hN]
  refine congrArg (fun z : EReal => (xs (ix2 0 d) : EReal) + z) ?_
  exact Finset.sum_congr rfl (fun r _ => by
    rw [pay3_blk_apply V c t r d ⟨2000 * t.val + r.val, by have := r.isLt; omega⟩ rfl])

theorem row0_A (c : Dev nD) (t : Fin cfg0.N) (h0 : t.val % 50 = 0) :
    (outsAt0 (F := Ideal) V c t.val t.isLt).2.2.2.1 = k0_pay4 (iblk0 V c 0 t) (iblk0 V c 2 t) (iblk0 V c 3 t) (iblk0 V c 1 t) (k0_pay1 (F := Ideal)) := by
  rw [outs_first V c t h0]
theorem row1_A (c : Dev nD) (t : Fin cfg0.N) (h0 : t.val % 50 = 0) :
    (outsAt0 (F := Ideal) V c t.val t.isLt).2.2.2.2 = k0_pay5 (iblk0 V c 0 t) (iblk0 V c 2 t) (iblk0 V c 3 t) (iblk0 V c 1 t) (k0_pay2 (F := Ideal)) := by
  rw [outs_first V c t h0]
theorem row0_S (c : Dev nD) (t : Fin cfg0.N) (h0 : ¬t.val % 50 = 0) :
    (outsAt0 (F := Ideal) V c t.val t.isLt).2.2.2.1 = k0_pay4 (iblk0 V c 0 t) (iblk0 V c 2 t) (iblk0 V c 3 t) (iblk0 V c 1 t) (prev0 V c t).2.2.2.1 := by
  by_cases h1 : t.val % 50 = 49
  · rw [outs_last V c t h1]
  · rw [outs_mid V c t h0 h1]
theorem row1_S (c : Dev nD) (t : Fin cfg0.N) (h0 : ¬t.val % 50 = 0) :
    (outsAt0 (F := Ideal) V c t.val t.isLt).2.2.2.2 = k0_pay5 (iblk0 V c 0 t) (iblk0 V c 2 t) (iblk0 V c 3 t) (iblk0 V c 1 t) (prev0 V c t).2.2.2.2 := by
  by_cases h1 : t.val % 50 = 49
  · rw [outs_last V c t h1]
  · rw [outs_mid V c t h0 h1]
theorem stat0_C (c : Dev nD) (t : Fin cfg0.N) (h1 : t.val % 50 = 49) :
    (outsAt0 (F := Ideal) V c t.val t.isLt).2.1 = (outsAt0 (F := Ideal) V c t.val t.isLt).2.2.2.1 := by
  rw [outs_last V c t h1]
theorem stat1_C (c : Dev nD) (t : Fin cfg0.N) (h1 : t.val % 50 = 49) :
    (outsAt0 (F := Ideal) V c t.val t.isLt).2.2.1 = (outsAt0 (F := Ideal) V c t.val t.isLt).2.2.2.2 := by
  rw [outs_last V c t h1]

theorem rows_inv (c : Dev nD) (d : Fin 64) : ∀ (n : ℕ) (t : Fin cfg0.N), t.val = n →
    ((outsAt0 (F := Ideal) V c t.val t.isLt).2.2.2.1 : S1x64.Idx → EReal) (ix2 0 d)
        = ∑ s ∈ Finset.range (n + 1), blockSum (fun m => hK V c m d) s
    ∧ ((outsAt0 (F := Ideal) V c t.val t.isLt).2.2.2.2 : S1x64.Idx → EReal) (ix2 0 d)
        = ∑ s ∈ Finset.range (n + 1), blockSum (fun m => hK V c m d * hK V c m d) s := by
  intro n
  induction n with
  | zero =>
    intro t ht
    have h0 : t.val % 50 = 0 := by omega
    constructor
    · refine (congrFun (row0_A V c t h0) (ix2 0 d)).trans ?_
      refine (pay4_blk_apply V c t (k0_pay1 (F := Ideal)) d).trans ?_
      rw [pay1_apply d, zero_add, Finset.sum_range_one, ht]
    · refine (congrFun (row1_A V c t h0) (ix2 0 d)).trans ?_
      refine (pay5_blk_apply V c t (k0_pay2 (F := Ideal)) d).trans ?_
      rw [pay2_apply d, zero_add, Finset.sum_range_one, ht]
  | succ n ih =>
    intro t ht
    have hN : t.val < 50 := lt_of_lt_of_eq t.isLt (show cfg0.N = 50 from N_0)
    have h0 : ¬t.val % 50 = 0 := by omega
    have hp : t.val - 1 < cfg0.N := Nat.lt_of_le_of_lt (Nat.sub_le _ _) t.isLt
    obtain ⟨ih0, ih1⟩ := ih ⟨t.val - 1, hp⟩ (by show t.val - 1 = n; omega)
    have ih0' : ((prev0 V c t).2.2.2.1 : S1x64.Idx → EReal) (ix2 0 d) = ∑ s ∈ Finset.range (n + 1), blockSum (fun m => hK V c m d) s := ih0
    have ih1' : ((prev0 V c t).2.2.2.2 : S1x64.Idx → EReal) (ix2 0 d) = ∑ s ∈ Finset.range (n + 1), blockSum (fun m => hK V c m d * hK V c m d) s := ih1
    constructor
    · refine (congrFun (row0_S V c t h0) (ix2 0 d)).trans ?_
      refine (pay4_blk_apply V c t (prev0 V c t).2.2.2.1 d).trans ?_
      rw [ih0', Finset.sum_range_succ _ (n + 1), ht]
    · refine (congrFun (row1_S V c t h0) (ix2 0 d)).trans ?_
      refine (pay5_blk_apply V c t (prev0 V c t).2.2.2.2 d).trans ?_
      rw [ih1', Finset.sum_range_succ _ (n + 1), ht]

theorem exists_last : ∃ t : Fin cfg0.N, t.val = 49 :=
  ⟨⟨49, lt_of_lt_of_eq (by decide : 49 < 50) (show cfg0.N = 50 from N_0).symm⟩, rfl⟩

theorem col_total (c : Dev nD) (d : Fin 64) :
    ∑ s ∈ Finset.range (49 + 1), blockSum (fun m => hK V c m d) s = ∑ n : Fin 100000, hK V c n d :=
  sum_blockSum (fun m => hK V c m d)
theorem colsq_total (c : Dev nD) (d : Fin 64) :
    ∑ s ∈ Finset.range (49 + 1), blockSum (fun m => hK V c m d * hK V c m d) s = ∑ n : Fin 100000, hK V c n d * hK V c n d :=
  sum_blockSum (fun m => hK V c m d * hK V c m d)

def G5 (c : Dev nD) : S1x64.Idx → EReal := fun i => ∑ n : Fin 100000, hK V c n (i 1)
theorem G5_apply (c : Dev nD) (d : Fin 64) : G5 V c (ix2 0 d) = ∑ n : Fin 100000, hK V c n d := rfl

theorem blk5_emb (t : Fin cfg0.N) (d : Fin 64) : (((cfg0.win 5).blk t).view.emb (ix2 0 d) : S1x64.Idx) = ix2 0 d := by
  obtain ⟨-, -, -, -, -, -, -, -, -, -, e0, e1, -⟩ := idx0 t
  funext a; apply Fin.ext
  match a with
  | ⟨0, _⟩ => show win0_5.index t (0 : Fin 2) * 1 + 1 * 0 = 0; omega
  | ⟨1, _⟩ => show win0_5.index t (1 : Fin 2) * 64 + 1 * d.val = d.val; omega

theorem read_blk5 (G : S1x64.Idx → EReal) (t : Fin cfg0.N) (d : Fin 64) :
    ((cfg0.win 5).blk t).view.read (Elt Ideal) G (ix2 0 d) = G (ix2 0 d) := by
  show G (((cfg0.win 5).blk t).view.emb (ix2 0 d)) = G (ix2 0 d)
  rw [blk5_emb t d]
theorem cut_blk5 (X : S1x64.Idx → EReal) (t : Fin cfg0.N) (d : Fin 64) :
    (cfg0.win 5).cut (grid0.coords t) X (ix2 0 d) = X (ix2 0 d) := rfl

theorem flushed5_eq (c : Dev nD) (t : Fin cfg0.N) (hf : (cfg0.win 5).flush t = true) :
    (dat0 (F := Ideal) V c).flushed 5 t = ((cfg0.win 5).blk t).view.read (Elt Ideal) (G5 V c) := by
  have hN : t.val < 50 := lt_of_lt_of_eq t.isLt (show cfg0.N = 50 from N_0)
  have h1 : t.val % 50 = 49 := (flush0_5 t).mp hf
  have h49 : t.val = 49 := by omega
  show (cfg0.win 5).cut (grid0.coords t) ((dat0 (F := Ideal) V c).after 5 t) = _
  rw [after0_5]
  funext (j : S1x64.Idx)
  obtain ⟨r, d, rfl⟩ : ∃ (r : Fin 1) (d : Fin 64), j = ix2 r d := ⟨j 0, j 1, eq_ix2 j⟩
  obtain rfl : r = 0 := Fin.ext (by omega)
  refine (cut_blk5 ((outsAt0 (F := Ideal) V c t.val t.isLt).2.1) t d).trans ?_
  refine Eq.trans ?_ (read_blk5 (G5 V c) t d).symm
  rw [G5_apply V c d]
  refine (congrFun (stat0_C V c t h1) (ix2 0 d)).trans ?_
  refine ((rows_inv V c d 49 t h49).1).trans ?_
  exact col_total V c d

theorem mem_blk5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v17_1).slice (win0_5.rect t)).set ↔ _
  rw [View.set_slice_whole, Rect.mem_set_unit]
  exact Iff.rfl

theorem cover5 (i : S1x64.Idx) : ∃ t : Fin cfg0.N, (cfg0.win 5).flush t = true ∧ i ∈ ((cfg0.win 5).blk t).view.set := by
  have hi0 : (i 0).val < 1 := (i 0).isLt
  have hi1 : (i 1).val < 64 := (i 1).isLt
  obtain ⟨t, ht⟩ := exists_last
  refine ⟨t, (flush0_5 t).mpr (by omega), ?_⟩
  rw [mem_blk5]
  obtain ⟨-, -, -, -, -, -, -, -, -, -, e0, e1, -⟩ := idx0 t
  intro a
  match a with
  | ⟨0, _⟩ =>
    show win0_5.index t (0 : Fin 2) * 1 ≤ (i 0).val ∧ (i 0).val < win0_5.index t (0 : Fin 2) * 1 + 1
    omega
  | ⟨1, _⟩ =>
    show win0_5.index t (1 : Fin 2) * 64 ≤ (i 1).val ∧ (i 1).val < win0_5.index t (1 : Fin 2) * 64 + 64
    omega

theorem final5 (c : Dev nD) : arr5 V c = G5 V c :=
  (dat0 (F := Ideal) V c).arrAt_eq_of_cover 5 (G5 V c) (fun t hf => flushed5_eq V c t hf) cover5

def G6 (c : Dev nD) : S1x64.Idx → EReal := fun i => ∑ n : Fin 100000, hK V c n (i 1) * hK V c n (i 1)
theorem G6_apply (c : Dev nD) (d : Fin 64) : G6 V c (ix2 0 d) = ∑ n : Fin 100000, hK V c n d * hK V c n d := rfl

theorem blk6_emb (t : Fin cfg0.N) (d : Fin 64) : (((cfg0.win 6).blk t).view.emb (ix2 0 d) : S1x64.Idx) = ix2 0 d := by
  obtain ⟨-, -, -, -, -, -, -, -, -, -, -, -, e0, e1⟩ := idx0 t
  funext a; apply Fin.ext
  match a with
  | ⟨0, _⟩ => show win0_6.index t (0 : Fin 2) * 1 + 1 * 0 = 0; omega
  | ⟨1, _⟩ => show win0_6.index t (1 : Fin 2) * 64 + 1 * d.val = d.val; omega

theorem read_blk6 (G : S1x64.Idx → EReal) (t : Fin cfg0.N) (d : Fin 64) :
    ((cfg0.win 6).blk t).view.read (Elt Ideal) G (ix2 0 d) = G (ix2 0 d) := by
  show G (((cfg0.win 6).blk t).view.emb (ix2 0 d)) = G (ix2 0 d)
  rw [blk6_emb t d]
theorem cut_blk6 (X : S1x64.Idx → EReal) (t : Fin cfg0.N) (d : Fin 64) :
    (cfg0.win 6).cut (grid0.coords t) X (ix2 0 d) = X (ix2 0 d) := rfl

theorem flushed6_eq (c : Dev nD) (t : Fin cfg0.N) (hf : (cfg0.win 6).flush t = true) :
    (dat0 (F := Ideal) V c).flushed 6 t = ((cfg0.win 6).blk t).view.read (Elt Ideal) (G6 V c) := by
  have hN : t.val < 50 := lt_of_lt_of_eq t.isLt (show cfg0.N = 50 from N_0)
  have h1 : t.val % 50 = 49 := (flush0_6 t).mp hf
  have h49 : t.val = 49 := by omega
  show (cfg0.win 6).cut (grid0.coords t) ((dat0 (F := Ideal) V c).after 6 t) = _
  rw [after0_6]
  funext (j : S1x64.Idx)
  obtain ⟨r, d, rfl⟩ : ∃ (r : Fin 1) (d : Fin 64), j = ix2 r d := ⟨j 0, j 1, eq_ix2 j⟩
  obtain rfl : r = 0 := Fin.ext (by omega)
  refine (cut_blk6 ((outsAt0 (F := Ideal) V c t.val t.isLt).2.2.1) t d).trans ?_
  refine Eq.trans ?_ (read_blk6 (G6 V c) t d).symm
  rw [G6_apply V c d]
  refine (congrFun (stat1_C V c t h1) (ix2 0 d)).trans ?_
  refine ((rows_inv V c d 49 t h49).2).trans ?_
  exact colsq_total V c d

theorem mem_blk6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v17_2).slice (win0_6.rect t)).set ↔ _
  rw [View.set_slice_whole, Rect.mem_set_unit]
  exact Iff.rfl

theorem cover6 (i : S1x64.Idx) : ∃ t : Fin cfg0.N, (cfg0.win 6).flush t = true ∧ i ∈ ((cfg0.win 6).blk t).view.set := by
  have hi0 : (i 0).val < 1 := (i 0).isLt
  have hi1 : (i 1).val < 64 := (i 1).isLt
  obtain ⟨t, ht⟩ := exists_last
  refine ⟨t, (flush0_6 t).mpr (by omega), ?_⟩
  rw [mem_blk6]
  obtain ⟨-, -, -, -, -, -, -, -, -, -, -, -, e0, e1⟩ := idx0 t
  intro a
  match a with
  | ⟨0, _⟩ =>
    show win0_6.index t (0 : Fin 2) * 1 ≤ (i 0).val ∧ (i 0).val < win0_6.index t (0 : Fin 2) * 1 + 1
    omega
  | ⟨1, _⟩ =>
    show win0_6.index t (1 : Fin 2) * 64 ≤ (i 1).val ∧ (i 1).val < win0_6.index t (1 : Fin 2) * 64 + 64
    omega

theorem final6 (c : Dev nD) : arr6 V c = G6 V c :=
  (dat0 (F := Ideal) V c).arrAt_eq_of_cover 6 (G6 V c) (fun t hf => flushed6_eq V c t hf) cover6

end R0

theorem arr4_apply (c : Dev nD) (n : Fin 100000) (d : Fin 64) : arr4 V c (ix2 n d) = hK V c n d := by
  rw [R0.final4 V c]

theorem arr5_apply (c : Dev nD) (d : Fin 64) : arr5 V c (ix2 0 d) = ∑ n : Fin 100000, hK V c n d := by
  rw [R0.final5 V c]
  exact R0.G5_apply V c d

theorem arr6_apply (c : Dev nD) (d : Fin 64) : arr6 V c (ix2 0 d) = ∑ n : Fin 100000, hK V c n d * hK V c n d := by
  rw [R0.final6 V c]
  exact R0.G6_apply V c d

end Cert.KernelIdeal.Val

end
-- ==== Proof.KI.R1Value.lean ====
import proofs.«159006_j88201448390851_1_alg».proof.Proof.KI.R1Body
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen Cert.KernelIdeal.Hand
open scoped BigOperators

variable (V : (c : Dev nD) → (b : Ref sig .tc) → Buf (Elt Ideal) ((c : Thread nD τ).loc b))

abbrev e1_h (c : Dev nD) : S100000x64.Idx → EReal := V c main_v17_0
abbrev e1_mean (c : Dev nD) : S1x64.Idx → EReal := V c main_v19
abbrev e1_inv (c : Dev nD) : S1x64.Idx → EReal := V c main_v26
abbrev e1_g (c : Dev nD) : S1x64.Idx → EReal := V c main_v15
abbrev e1_b (c : Dev nD) : S1x64.Idx → EReal := V c main_v16
abbrev res1 (c : Dev nD) : S100000x64.Idx → EReal := (dat1 (F := Ideal) V c).arrAt 5 cfg1.N

namespace R1

section Piece
variable {F : FTy → Type} [FloatOps F]

theorem origin2 : (![0, 0] : Fin 2 → Nat) = fun _ => 0 := funext fun a => by
  match a with
  | ⟨0, _⟩ => rfl
  | ⟨1, _⟩ => rfl

variable (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
  (x0 : Vec F S2000x64 .f32) (x1 x2 x3 x4 : Vec F S1x64 .f32)

set_option maxHeartbeats 1000000 in
-- The pieces the run leaves in the result block are the body's own arithmetic on the blocks it loaded.
theorem piece1 : View.canon (kernelRun1 c i arg1 harg1 arg2 harg2 arg3 harg3 arg4 harg4 arg5 harg5 arg6 harg6 x0 x1 x2 x3 x4).1 = k1_pay1 x0 x1 x2 x3 x4 := by
  unfold kernelRun1
  dsimp only
  sl_unfold_words
  rw [View.canon_unit_zero origin2]
  simp only [View.readAt_eq_ld, harg1.read_unread, harg2.read_unread, harg3.read_unread, harg4.read_unread, harg5.read_unread,
    View.ld_unit_zero (S := S2000x64) origin2, View.ld_unit_zero (S := S1x64) origin2]

theorem out_eq (t : Fin cfg1.N) : out1_5 c t x0 x1 x2 x3 x4 = k1_pay1 x0 x1 x2 x3 x4 := by
  unfold out1_5 run1; exact piece1 ..

end Piece

theorem row_bcast_apply (x : FVec Ideal S1x64 .f32) (r : Fin 2000) (d : Fin 64) :
    broadcastTo S2000x64 x broadcasts_S1x64_S2000x64 (ix2 r d) = x (ix2 0 d) :=
  broadcastTo_apply x broadcasts_S1x64_S2000x64 (ix2 r d) (ix2 0 d) fun a => by
    match a with
    | ⟨0, _⟩ => rfl
    | ⟨1, _⟩ => rfl

theorem pay_apply (x0 : Vec Ideal S2000x64 .f32) (x1 x2 x3 x4 : Vec Ideal S1x64 .f32) (r : Fin 2000) (d : Fin 64) :
    k1_pay1 (F := Ideal) x0 x1 x2 x3 x4 (ix2 r d)
      = max (((x0 (ix2 r d) - x1 (ix2 0 d)) * x2 (ix2 0 d)) * x3 (ix2 0 d) + x4 (ix2 0 d)) 0 := by
  unfold k1_pay1
  simp only [shapeCast_self, maximumf_apply, addf_apply, mulf_apply, subf_apply, broadcast_apply, row_bcast_apply,
    Ideal.ofBits_def, Ideal.ofBits_zero_f32]

abbrev hblk (c : Dev nD) (t : Fin cfg1.N) : Vec Ideal S2000x64 .f32 := iblk1 V c 0 t
abbrev meanblk (c : Dev nD) (t : Fin cfg1.N) : Vec Ideal S1x64 .f32 := iblk1 V c 1 t
abbrev invblk (c : Dev nD) (t : Fin cfg1.N) : Vec Ideal S1x64 .f32 := iblk1 V c 2 t
abbrev gblk (c : Dev nD) (t : Fin cfg1.N) : Vec Ideal S1x64 .f32 := iblk1 V c 3 t
abbrev bblk (c : Dev nD) (t : Fin cfg1.N) : Vec Ideal S1x64 .f32 := iblk1 V c 4 t

theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

theorem hblk_apply (c : Dev nD) (t : Fin cfg1.N) (r : Fin 2000) (d : Fin 64) (n : Fin 100000)
    (hn : n.val = t.val * 2000 + r.val) : hblk V c t (ix2 r d) = e1_h V c (ix2 n d) := by
  show V c main_v17_0 (((cfg1.win 0).blk t).view.emb (ix2 r d)) = V c main_v17_0 (ix2 n d)
  refine congrArg (V c main_v17_0) (funext fun a => Fin.ext ?_)
  obtain ⟨⟨e0, e1⟩, -⟩ := idx_facts t
  match a with
  | ⟨0, _⟩ => show win1_0.index t (0 : Fin 2) * 2000 + 1 * r.val = n.val; omega
  | ⟨1, _⟩ => show win1_0.index t (1 : Fin 2) * 64 + 1 * d.val = d.val; omega

theorem meanblk_apply (c : Dev nD) (t : Fin cfg1.N) (d : Fin 64) : meanblk V c t (ix2 0 d) = e1_mean V c (ix2 0 d) := by
  show V c main_v19 (((cfg1.win 1).blk t).view.emb (ix2 0 d)) = V c main_v19 (ix2 0 d)
  refine congrArg (V c main_v19) (funext fun a => Fin.ext ?_)
  obtain ⟨-, ⟨e0, e1⟩, -⟩ := idx_facts t
  match a with
  | ⟨0, _⟩ => show win1_1.index t (0 : Fin 2) * 1 + 1 * 0 = 0; omega
  | ⟨1, _⟩ => show win1_1.index t (1 : Fin 2) * 64 + 1 * d.val = d.val; omega
theorem invblk_apply (c : Dev nD) (t : Fin cfg1.N) (d : Fin 64) : invblk V c t (ix2 0 d) = e1_inv V c (ix2 0 d) := by
  show V c main_v26 (((cfg1.win 2).blk t).view.emb (ix2 0 d)) = V c main_v26 (ix2 0 d)
  refine congrArg (V c main_v26) (funext fun a => Fin.ext ?_)
  obtain ⟨-, -, ⟨e0, e1⟩, -⟩ := idx_facts t
  match a with
  | ⟨0, _⟩ => show win1_2.index t (0 : Fin 2) * 1 + 1 * 0 = 0; omega
  | ⟨1, _⟩ => show win1_2.index t (1 : Fin 2) * 64 + 1 * d.val = d.val; omega
theorem gblk_apply (c : Dev nD) (t : Fin cfg1.N) (d : Fin 64) : gblk V c t (ix2 0 d) = e1_g V c (ix2 0 d) := by
  show V c main_v15 (((cfg1.win 3).blk t).view.emb (ix2 0 d)) = V c main_v15 (ix2 0 d)
  refine congrArg (V c main_v15) (funext fun a => Fin.ext ?_)
  obtain ⟨-, -, -, ⟨e0, e1⟩, -⟩ := idx_facts t
  match a with
  | ⟨0, _⟩ => show win1_3.index t (0 : Fin 2) * 1 + 1 * 0 = 0; omega
  | ⟨1, _⟩ => show win1_3.index t (1 : Fin 2) * 64 + 1 * d.val = d.val; omega
theorem bblk_apply (c : Dev nD) (t : Fin cfg1.N) (d : Fin 64) : bblk V c t (ix2 0 d) = e1_b V c (ix2 0 d) := by
  show V c main_v16 (((cfg1.win 4).blk t).view.emb (ix2 0 d)) = V c main_v16 (ix2 0 d)
  refine congrArg (V c main_v16) (funext fun a => Fin.ext ?_)
  obtain ⟨-, -, -, -, ⟨e0, e1⟩, -⟩ := idx_facts t
  match a with
  | ⟨0, _⟩ => show win1_4.index t (0 : Fin 2) * 1 + 1 * 0 = 0; omega
  | ⟨1, _⟩ => show win1_4.index t (1 : Fin 2) * 64 + 1 * d.val = d.val; omega

abbrev normAct (c : Dev nD) : S100000x64.Idx → EReal := fun i =>
  max (((e1_h V c i - e1_mean V c (ix2 0 (i 1))) * e1_inv V c (ix2 0 (i 1))) * e1_g V c (ix2 0 (i 1))
    + e1_b V c (ix2 0 (i 1))) 0

theorem outblk_emb (t : Fin cfg1.N) (r : Fin 2000) (d : Fin 64) (n : Fin 100000) (hn : n.val = t.val * 2000 + r.val) :
    ((cfg1.win 5).blk t).view.emb (ix2 r d) = (ix2 n d : S100000x64.Idx) := by
  refine funext fun a => Fin.ext ?_
  obtain ⟨-, -, -, -, -, ⟨e0, e1⟩⟩ := idx_facts t
  match a with
  | ⟨0, _⟩ => show win1_5.index t (0 : Fin 2) * 2000 + 1 * r.val = n.val; omega
  | ⟨1, _⟩ => show win1_5.index t (1 : Fin 2) * 64 + 1 * d.val = d.val; omega

theorem flushed_eq (c : Dev nD) (t : Fin cfg1.N) :
    (dat1 (F := Ideal) V c).flushed 5 t = ((cfg1.win 5).blk t).view.read (Elt Ideal) (normAct V c) := by
  show (cfg1.win 5).cut (grid1.coords t) ((dat1 (F := Ideal) V c).after 5 t) = _
  rw [after1_5]
  rw [out_eq (F := Ideal) c (iblk1 V c 0 t) (iblk1 V c 1 t) (iblk1 V c 2 t) (iblk1 V c 3 t) (iblk1 V c 4 t) t]
  refine funext fun (y : S2000x64.Idx) => ?_
  obtain ⟨r, d, rfl⟩ : ∃ (r : Fin 2000) (d : Fin 64), y = ix2 r d := ⟨y 0, y 1, eq_ix2 y⟩
  have ht : t.val < 50 := t.isLt
  have hr : r.val < 2000 := r.isLt
  show k1_pay1 (F := Ideal) (hblk V c t) (meanblk V c t) (invblk V c t) (gblk V c t) (bblk V c t) (ix2 r d)
    = normAct V c (((cfg1.win 5).blk t).view.emb (ix2 r d))
  refine (pay_apply (hblk V c t) (meanblk V c t) (invblk V c t) (gblk V c t) (bblk V c t) r d).trans ?_
  rw [outblk_emb t r d ⟨t.val * 2000 + r.val, by omega⟩ rfl,
    hblk_apply V c t r d ⟨t.val * 2000 + r.val, by omega⟩ rfl,
    meanblk_apply V c t d, invblk_apply V c t d, gblk_apply V c t d, bblk_apply V c t d]

theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v27).slice (win1_5.rect t)).set ↔ _
  rw [View.set_slice_whole, Rect.mem_set_unit]
  exact Iff.rfl

theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  refine ⟨⟨(i 0).val / 2000, by show (i 0).val / 2000 < 50; omega⟩, flush1_5 _, ?_⟩
  rw [mem_blk]
  obtain ⟨-, -, -, -, -, ⟨e0, e1⟩⟩ := idx_facts ⟨(i 0).val / 2000, by show (i 0).val / 2000 < 50; omega⟩
  intro a
  match a with
  | ⟨0, _⟩ =>
    show win1_5.index ⟨(i 0).val / 2000, _⟩ (0 : Fin 2) * 2000 ≤ (i 0).val ∧ (i 0).val < win1_5.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, _⟩ (1 : Fin 2) * 64 ≤ (i 1).val ∧ (i 1).val < win1_5.index ⟨(i 0).val / 2000, _⟩ (1 : Fin 2) * 64 + 64
    rw [e1]; omega

theorem res_eq (c : Dev nD) : res1 V c = normAct V c :=
  (dat1 (F := Ideal) V c).arrAt_eq_of_cover 5 (normAct V c) (fun t _ => flushed_eq V c t) covered

end R1

theorem res_apply (c : Dev nD) (n : Fin 100000) (d : Fin 64) :
    res1 V c (ix2 n d)
      = max (((e1_h V c (ix2 n d) - e1_mean V c (ix2 0 d)) * e1_inv V c (ix2 0 d)) * e1_g V c (ix2 0 d)
          + e1_b V c (ix2 0 d)) 0 :=
  congrFun (R1.res_eq V c) (ix2 n d)

end Cert.KernelIdeal.Val

end
-- ==== Proof.KI.KValue.lean ====
import proofs.«159006_j88201448390851_1_alg».proof.Proof.KI.Run
import proofs.«159006_j88201448390851_1_alg».proof.Proof.KI.Prefix
import proofs.«159006_j88201448390851_1_alg».proof.Proof.KI.R0Value
import proofs.«159006_j88201448390851_1_alg».proof.Proof.KI.R1Value
import proofs.«159006_j88201448390851_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open scoped BigOperators

variable (m : (ℓ : Loc nD τ sig) → Buf (Elt Ideal) ℓ) (ρ : Dev nD → PrngReg)

abbrev a_x (c : Dev nD) : FVec Ideal S100000x64 .f32 := m ((c.tc : Thread nD τ).loc main_arg0)
abbrev a_adjv (c : Dev nD) : FVec Ideal S1600000 .f32 := m ((c.tc : Thread nD τ).loc main_arg1)
abbrev a_W (c : Dev nD) : FVec Ideal S64x64 .f32 := m ((c.tc : Thread nD τ).loc main_arg2)
abbrev a_b (c : Dev nD) : FVec Ideal S64 .f32 := m ((c.tc : Thread nD τ).loc main_arg3)
abbrev a_g (c : Dev nD) : FVec Ideal S64 .f32 := m ((c.tc : Thread nD τ).loc main_arg4)
abbrev a_be (c : Dev nD) : FVec Ideal S64 .f32 := m ((c.tc : Thread nD τ).loc main_arg5)
abbrev a_row (c : Dev nD) : (⟨S1600000, .i32⟩ : BufTy).Contents (Elt Ideal) := m ((c.tc : Thread nD τ).loc main_arg6)
abbrev a_col (c : Dev nD) : (⟨S1600000, .i32⟩ : BufTy).Contents (Elt Ideal) := m ((c.tc : Thread nD τ).loc main_arg7)

abbrev hM (c : Dev nD) (n : Fin 100000) (d : Fin 64) : EReal :=
  Cert.Spec.act (hsOf (a_x m c) (a_adjv m c) (a_row m c) (a_col m c)) (wtOf (a_W m c)) (a_b m c) (a_x m c) n d

theorem entry0_hs (c : Dev nD) : e0_hs (U1 m ρ) c = hsOf (a_x m c) (a_adjv m c) (a_row m c) (a_col m c) := by

  show StableHlo.after hostOps0 (W0 m ρ c) (Proc.devRef .tc main_v12) = _
  after_results
  unfold hsOf
  rfl
theorem entry0_wt (c : Dev nD) : e0_wt (U1 m ρ) c = wtOf (a_W m c) := by
  show StableHlo.after hostOps0 (W0 m ρ c) (Proc.devRef .tc main_v13) = _
  after_results
  rfl

theorem e0_b2_eq (c : Dev nD) : e0_b2 (U1 m ρ) c = shapeCast S1x64 (a_b m c) shapeCasts_S64_S1x64 := by
  show StableHlo.after hostOps0 (W0 m ρ c) (Proc.devRef .tc main_v14) = _
  after_results
  rfl
theorem entry0_b2 (c : Dev nD) (d : Fin 64) : e0_b2 (U1 m ρ) c (ix2 0 d) = a_b m c (ix1 d) := by
  rw [e0_b2_eq]
  exact shapeCast_a_1a_apply (a_b m c) shapeCasts_S64_S1x64 0 d
theorem entry0_x (c : Dev nD) : e0_x (U1 m ρ) c = a_x m c := by

  show StableHlo.after hostOps0 (W0 m ρ c) (Proc.devRef .tc main_arg0) = _
  after_results

theorem hK_eq (c : Dev nD) (n : Fin 100000) (d : Fin 64) : hK (U1 m ρ) c n d = hM m c n d := by
  show act2 (e0_hs (U1 m ρ) c) (e0_wt (U1 m ρ) c) (e0_b2 (U1 m ρ) c) (e0_x (U1 m ρ) c) n d
    = Cert.Spec.act (hsOf (a_x m c) (a_adjv m c) (a_row m c) (a_col m c)) (wtOf (a_W m c)) (a_b m c) (a_x m c) n d
  unfold act2 Cert.Spec.act
  rw [entry0_hs m ρ c, entry0_wt m ρ c, entry0_x m ρ c, entry0_b2 m ρ c d]

theorem W2_v17_0 (c : Dev nD) : W2 m ρ c (Proc.devRef .tc main_v17_0) = arr4 (U1 m ρ) c := W2_arr m ρ c 4
theorem W2_v17_1 (c : Dev nD) : W2 m ρ c (Proc.devRef .tc main_v17_1) = arr5 (U1 m ρ) c := W2_arr m ρ c 5
theorem W2_v17_2 (c : Dev nD) : W2 m ρ c (Proc.devRef .tc main_v17_2) = arr6 (U1 m ρ) c := W2_arr m ρ c 6

abbrev rowN : FVec Ideal S1x64 .f32 := broadcastInDim S1x64 ![] bcast_S_S1x64 (constant (F := Ideal) S_ .f32 0x47C35000#32)
abbrev rowEps : FVec Ideal S1x64 .f32 := broadcastInDim S1x64 ![] bcast_S_S1x64 (constant (F := Ideal) S_ .f32 0x3727C5AC#32)

theorem entry1_h (c : Dev nD) : e1_h (U3 m ρ) c = arr4 (U1 m ρ) c := by

  show StableHlo.after hostOps1 (W2 m ρ c) (Proc.devRef .tc main_v17_0) = _
  after_results
  exact W2_v17_0 m ρ c

theorem e1_mean_eq (c : Dev nD) : e1_mean (U3 m ρ) c = Host.divf (arr5 (U1 m ρ) c) rowN := by
  show StableHlo.after hostOps1 (W2 m ρ c) (Proc.devRef .tc main_v19) = _
  after_results
  rw [W2_v17_1 m ρ c]
theorem entry1_mean (c : Dev nD) (d : Fin 64) :
    e1_mean (U3 m ρ) c (ix2 0 d) = Ideal.div (arr5 (U1 m ρ) c (ix2 0 d)) Cert.Spec.cN := by
  rw [e1_mean_eq m ρ c]
  rfl

theorem e1_inv_eq (c : Dev nD) :
    e1_inv (U3 m ρ) c
      = Host.rsqrt (addf (subf (Host.divf (arr6 (U1 m ρ) c) rowN)
          (mulf (Host.divf (arr5 (U1 m ρ) c) rowN) (Host.divf (arr5 (U1 m ρ) c) rowN))) rowEps) := by
  show StableHlo.after hostOps1 (W2 m ρ c) (Proc.devRef .tc main_v26) = _
  after_results
  rw [W2_v17_1 m ρ c, W2_v17_2 m ρ c]
theorem entry1_inv (c : Dev nD) (d : Fin 64) :
    e1_inv (U3 m ρ) c (ix2 0 d)
      = Ideal.rsqrt ((Ideal.div (arr6 (U1 m ρ) c (ix2 0 d)) Cert.Spec.cN
          - Ideal.div (arr5 (U1 m ρ) c (ix2 0 d)) Cert.Spec.cN * Ideal.div (arr5 (U1 m ρ) c (ix2 0 d)) Cert.Spec.cN) + Cert.Spec.cEps) := by
  rw [e1_inv_eq m ρ c]
  rfl

theorem e1_g_eq (c : Dev nD) : e1_g (U3 m ρ) c = shapeCast S1x64 (a_g m c) shapeCasts_S64_S1x64 := by
  show StableHlo.after hostOps1 (W2 m ρ c) (Proc.devRef .tc main_v15) = _
  after_results
  rw [W2_of_ne m ρ c main_v15 (by decide)]
  show StableHlo.after hostOps0 (W0 m ρ c) (Proc.devRef .tc main_v15) = _
  after_results
  rfl
theorem e1_b_eq (c : Dev nD) : e1_b (U3 m ρ) c = shapeCast S1x64 (a_be m c) shapeCasts_S64_S1x64 := by
  show StableHlo.after hostOps1 (W2 m ρ c) (Proc.devRef .tc main_v16) = _
  after_results
  rw [W2_of_ne m ρ c main_v16 (by decide)]
  show StableHlo.after hostOps0 (W0 m ρ c) (Proc.devRef .tc main_v16) = _
  after_results
  rfl
theorem entry1_g (c : Dev nD) (d : Fin 64) : e1_g (U3 m ρ) c (ix2 0 d) = a_g m c (ix1 d) := by
  rw [e1_g_eq]
  exact shapeCast_a_1a_apply (a_g m c) shapeCasts_S64_S1x64 0 d
theorem entry1_b (c : Dev nD) (d : Fin 64) : e1_b (U3 m ρ) c (ix2 0 d) = a_be m c (ix1 d) := by
  rw [e1_b_eq]
  exact shapeCast_a_1a_apply (a_be m c) shapeCasts_S64_S1x64 0 d

theorem kernel_result_apply (c : Dev nD) (n : Fin 100000) (d : Fin 64) :
    res1 (U3 m ρ) c (ix2 n d)
      = Cert.Spec.normK (hM m c) (fun d' => a_g m c (ix1 d')) (fun d' => a_be m c (ix1 d')) n d := by
  rw [res_apply, entry1_h m ρ c, arr4_apply, hK_eq m ρ c n d, entry1_mean m ρ c d, entry1_inv m ρ c d,
    entry1_g m ρ c d, entry1_b m ρ c d, arr5_apply, arr6_apply]
  simp only [hK_eq m ρ c]
  unfold Cert.Spec.normK Cert.Spec.colSum Cert.Spec.colSumSq
  rfl

end Cert.KernelIdeal.Val

end
-- ==== Proof.Ref.RefValue.lean ====
import proofs.«159006_j88201448390851_1_alg».proof.Proof.Gen.ReferenceIdeal.Run
import proofs.«159006_j88201448390851_1_alg».proof.Proof.Gen.ReferenceIdeal.Read
import proofs.«159006_j88201448390851_1_alg».proof.Proof.Spec
import proofs.«159006_j88201448390851_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Val

open Idealize.ShloMosaic Idealize.ShloMosaic.ValueIdx Idealize.SL.Sem Cert.ReferenceIdeal
open Cert.ReferenceIdeal.Facts₀ Cert.ReferenceIdeal.Facts

variable [Cert.ReferenceIdeal.Facts]

def hsOf (x : FVec Ideal S100000x64 .f32) (adjv : FVec Ideal S1600000 .f32)
    (arow acol : (⟨S1600000, .i32⟩ : BufTy).Contents (Elt Ideal)) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 arow)
    (mulf (broadcastInDim S1600000x64 ![0, 1] bcast_S1600000x1_S1600000x64_0_1 (broadcastInDim S1600000x1 ![0] bcast_S1600000_S1600000x1_0 adjv))
      (Host.gather gather_S100000x64_S1600000x1_S1600000x64_1_0_n_n_0_1_164 x
        (broadcastInDim S1600000x1 ![0] bcast_S1600000_S1600000x1_0
          (select (cmpi .slt acol (broadcastInDim S1600000 ![] bcast_S_S1600000 (constantI S_ 32 0#32)))
            (addi acol (broadcastInDim S1600000 ![] bcast_S_S1600000 (constantI S_ 32 100000#32))) acol))))

def wtOf (W : FVec Ideal S64x64 .f32) : FVec Ideal S64x64 .f32 :=
  transpose S64x64 [1, 0] W transposes_S64x64_S64x64_1_0

section Stages

variable (x0 : (⟨S100000x64, .f32⟩ : BufTy).Contents (Elt Ideal)) (x1 : (⟨S1600000, .f32⟩ : BufTy).Contents (Elt Ideal))
  (x2 : (⟨S64x64, .f32⟩ : BufTy).Contents (Elt Ideal)) (x3 x4 x5 : (⟨S64, .f32⟩ : BufTy).Contents (Elt Ideal))
  (x6 x7 : (⟨S1600000, .i32⟩ : BufTy).Contents (Elt Ideal))

theorem hs_eq : Read.val_main_v12 (F := Ideal) x0 x1 x6 x7 = hsOf x0 x1 x6 x7 := rfl

theorem wt_eq : Read.val_main_v13 (F := Ideal) x2 = wtOf x2 := rfl

theorem lidx14_eq (n : Fin 100000) (d k : Fin 64) : Read.lidx_main_v14 (ix2 n d) k = ix2 n k :=
  funext fun a => Fin.ext (by match a with | ⟨0, _⟩ => rfl | ⟨1, _⟩ => rfl)

theorem ridx14_eq (n : Fin 100000) (d k : Fin 64) : Read.ridx_main_v14 (ix2 n d) k = ix2 k d :=
  funext fun a => Fin.ext (by match a with | ⟨0, _⟩ => rfl | ⟨1, _⟩ => rfl)

theorem idx19_eq (d : Fin 64) (k : Fin 100000) : Read.idx_main_v19 (ix1 d) k = ix2 k d :=
  funext fun a => Fin.ext (by match a with | ⟨0, _⟩ => rfl | ⟨1, _⟩ => rfl)

theorem idx26_eq (d : Fin 64) (k : Fin 100000) : Read.idx_main_v26 (ix1 d) k = ix2 k d :=
  funext fun a => Fin.ext (by match a with | ⟨0, _⟩ => rfl | ⟨1, _⟩ => rfl)

theorem idx16_eq (n : Fin 100000) (d : Fin 64) : Read.idx_main_v15 (Read.idx_main_v16 (ix2 n d)) = ix1 d :=
  funext fun a => Fin.ext (by match a with | ⟨0, _⟩ => rfl)

theorem idx23_eq (n : Fin 100000) (d : Fin 64) : Read.idx_main_v22 (Read.idx_main_v23 (ix2 n d)) = ix1 d :=
  funext fun a => Fin.ext (by match a with | ⟨0, _⟩ => rfl)

theorem idx30_eq (n : Fin 100000) (d : Fin 64) : Read.idx_main_v29 (Read.idx_main_v30 (ix2 n d)) = ix1 d :=
  funext fun a => Fin.ext (by match a with | ⟨0, _⟩ => rfl)

theorem idx36_eq (n : Fin 100000) (d : Fin 64) : Read.idx_main_v35 (Read.idx_main_v36 (ix2 n d)) = ix1 d :=
  funext fun a => Fin.ext (by match a with | ⟨0, _⟩ => rfl)

theorem idx39_eq (n : Fin 100000) (d : Fin 64) : Read.idx_main_v38 (Read.idx_main_v39 (ix2 n d)) = ix1 d :=
  funext fun a => Fin.ext (by match a with | ⟨0, _⟩ => rfl)

theorem idx42_eq (n : Fin 100000) (d : Fin 64) : Read.idx_main_v41 (Read.idx_main_v42 (ix2 n d)) = ix1 d :=
  funext fun a => Fin.ext (by match a with | ⟨0, _⟩ => rfl)

theorem v18_apply (n : Fin 100000) (d : Fin 64) :
    Read.val_main_v18 (F := Ideal) x0 x1 x2 x3 x6 x7 (ix2 n d)
      = Cert.Spec.act (hsOf x0 x1 x6 x7) (wtOf x2) x3 x0 n d := by
  rw [Read.val_main_v18_apply, Read.val_main_v17_apply, Read.val_main_v14_apply, Read.val_main_v16_apply,
    Read.val_main_v15_apply]
  simp only [Ideal.addf_def, lidx14_eq, ridx14_eq, idx16_eq, hs_eq, wt_eq]
  rfl

local notation "H" => Cert.Spec.act (hsOf x0 x1 x6 x7) (wtOf x2) x3 x0

theorem v21_apply (d : Fin 64) :
    Read.val_main_v21 (F := Ideal) x0 x1 x2 x3 x6 x7 (ix1 d) = Cert.Spec.meanR H d := by
  rw [Read.val_main_v21_apply, Read.val_main_v19_apply, Read.val_main_v20_apply, Read.val_main_cst_2_apply,
    Read.val_main_cst_1_apply]
  simp only [Ideal.hostDivf_def, Ideal.ofBits_def, Ideal.ofBits_zero_f32, idx19_eq, v18_apply]
  unfold Cert.Spec.meanR Cert.Spec.cN
  with_reducible rfl

theorem v24_apply (n : Fin 100000) (d : Fin 64) :
    Read.val_main_v24 (F := Ideal) x0 x1 x2 x3 x6 x7 (ix2 n d) = H n d - Cert.Spec.meanR H d := by
  rw [Read.val_main_v24_apply, Read.val_main_v23_apply, Read.val_main_v22_apply]
  simp only [Ideal.subf_def, idx23_eq, v18_apply, v21_apply]

theorem v31_apply (n : Fin 100000) (d : Fin 64) :
    Read.val_main_v31 (F := Ideal) x0 x1 x2 x3 x6 x7 (ix2 n d) = H n d - Cert.Spec.meanR H d := by
  rw [Read.val_main_v31_apply, Read.val_main_v30_apply, Read.val_main_v29_apply]
  simp only [Ideal.subf_def, idx30_eq, v18_apply, v21_apply]

theorem v25_apply (n : Fin 100000) (d : Fin 64) :
    Read.val_main_v25 (F := Ideal) x0 x1 x2 x3 x6 x7 (ix2 n d)
      = (H n d - Cert.Spec.meanR H d) * (H n d - Cert.Spec.meanR H d) := by
  rw [Read.val_main_v25_apply, v24_apply]
  exact Ideal.mulf_def _ _

theorem v28_apply (d : Fin 64) :
    Read.val_main_v28 (F := Ideal) x0 x1 x2 x3 x6 x7 (ix1 d)
      = Ideal.div (0 + ∑ n' : Fin 100000, (H n' d - Cert.Spec.meanR H d) * (H n' d - Cert.Spec.meanR H d)) Cert.Spec.cN := by
  rw [Read.val_main_v28_apply, Read.val_main_v26_apply, Read.val_main_v27_apply, Read.val_main_cst_4_apply,
    Read.val_main_cst_3_apply]
  simp only [Ideal.hostDivf_def, Ideal.ofBits_def, Ideal.ofBits_zero_f32, idx26_eq]
  rw [Finset.sum_congr rfl (fun n _ => v25_apply x0 x1 x2 x3 x6 x7 n d)]
  unfold Cert.Spec.cN
  with_reducible rfl

theorem v34_apply (d : Fin 64) :
    Read.val_main_v34 (F := Ideal) x0 x1 x2 x3 x6 x7 (ix1 d)
      = Ideal.rsqrt (Ideal.div (0 + ∑ n' : Fin 100000, (H n' d - Cert.Spec.meanR H d) * (H n' d - Cert.Spec.meanR H d))
          Cert.Spec.cN + Cert.Spec.cEps) := by
  rw [Read.val_main_v34_apply, Read.val_main_v33_apply, Read.val_main_v32_apply, Read.val_main_cst_5_apply]
  simp only [Ideal.hostUnary_rsqrt_def, Ideal.addf_def, Ideal.ofBits_def, v28_apply]
  unfold Cert.Spec.cEps
  with_reducible rfl

theorem v44_apply (n : Fin 100000) (d : Fin 64) :
    Read.val_main_v44 (F := Ideal) x0 x1 x2 x3 x4 x5 x6 x7 (ix2 n d)
      = Cert.Spec.normR H (fun d' => x4 (ix1 d')) (fun d' => x5 (ix1 d')) n d := by
  rw [Read.val_main_v44_apply, Read.val_main_v43_apply, Read.val_main_v40_apply, Read.val_main_v37_apply,
    Read.val_main_v36_apply, Read.val_main_v35_apply, Read.val_main_v39_apply, Read.val_main_v38_apply,
    Read.val_main_v42_apply, Read.val_main_v41_apply, Read.val_main_call0_v0_apply, Read.val_main_call0_cst_apply]
  simp only [Ideal.maximumf_def, Ideal.addf_def, Ideal.mulf_def, Ideal.ofBits_def, Ideal.ofBits_zero_f32,
    idx36_eq, idx39_eq, idx42_eq, v31_apply, v34_apply]
  unfold Cert.Spec.normR
  with_reducible rfl

end Stages

theorem result_apply (m : (ℓ : Loc nD τ sig) → Buf (Elt Ideal) ℓ) (c : Dev nD) (n : Fin 100000) (d : Fin 64) :
    Cert.ReferenceIdeal.Value.res_main_v44 (F := Ideal) m c (ix2 n d)
      = Cert.Spec.normR
          (Cert.Spec.act
            (hsOf (m ((c.tc : Thread nD τ).loc main_arg0)) (m ((c.tc : Thread nD τ).loc main_arg1))
              (m ((c.tc : Thread nD τ).loc main_arg6)) (m ((c.tc : Thread nD τ).loc main_arg7)))
            (wtOf (m ((c.tc : Thread nD τ).loc main_arg2)))
            (m ((c.tc : Thread nD τ).loc main_arg3)) (m ((c.tc : Thread nD τ).loc main_arg0)))
          (fun d' => m ((c.tc : Thread nD τ).loc main_arg4) (ix1 d'))
          (fun d' => m ((c.tc : Thread nD τ).loc main_arg5) (ix1 d')) n d := by
  rw [Read.val_main_v44_eq]
  exact v44_apply _ _ _ _ _ _ _ _ n d

end Cert.ReferenceIdeal.Val

end
-- ==== Proof.Finite.lean ====
import proofs.«159006_j88201448390851_1_alg».proof.Defs
import proofs.«159006_j88201448390851_1_alg».proof.Proof.Gen.Pre_finite_inputs
import Idealize.ShloMosaic.Lib.ReduceAll
import Idealize.ShloMosaic.Lib.ValueIdx

noncomputable section

namespace Cert.Finite

open Idealize.ShloMosaic Idealize.SL.Sem Cert.KernelIdeal

theorem inf_word : Ideal.ofBits .f32 0x7F800000#32 = (⊤ : EReal) := by simp [Ideal.ofBits, Ideal.ieee]

theorem real_of_abs_lt_inf (x : EReal)
    (e : Ideal.cmp .olt (max x (-x)) (Ideal.ofBits .f32 0x7F800000#32) = 1#1) : ∃ r : ℝ, x = (r : EReal) := by
  rw [inf_word] at e
  induction x using EReal.rec with
  | bot => simp [Ideal.cmp] at e
  | coe r => exact ⟨r, rfl⟩
  | top => simp [Ideal.cmp] at e

instance scalar_idx_subsingleton : Subsingleton Cert.Pre_finite_inputs.S_.Idx := ⟨fun a b => funext fun d => d.elim0⟩

theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu j = 1#1)
    (i : s.Idx) : ∃ r : ℝ, x i = (r : EReal) :=
  real_of_abs_lt_inf (x i) (Host.reduce_andi_all _ _ hr hu j e i)

theorem inputs_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have e := congrFun (h c) ValueIdx.ix0
  dsimp only [Cert.Pre_finite_inputs.fn, Cert.Pre_finite_inputs.fn_part1, andi] at e
  obtain ⟨⟨⟨⟨⟨e0, e1⟩, e2⟩, e3⟩, -⟩, -⟩ := by
    simpa only [IntOp.andi_eq_one] using e
  exact ⟨real_of_all _ _ _ _ _ e0, real_of_all _ _ _ _ _ e1, real_of_all _ _ _ _ _ e2, real_of_all _ _ _ _ _ e3⟩

end Cert.Finite

end
-- ==== Proof.lean ====
import proofs.«159006_j88201448390851_1_alg».proof.Defs
import proofs.«159006_j88201448390851_1_alg».proof.Proof.Gen.Kernel
import proofs.«159006_j88201448390851_1_alg».proof.Proof.Gen.KernelIdeal
import proofs.«159006_j88201448390851_1_alg».proof.Proof.Gen.ReferenceIdeal
import proofs.«159006_j88201448390851_1_alg».proof.Proof.Gen.ReferenceIdeal.Run
import proofs.«159006_j88201448390851_1_alg».proof.Proof.Gen.ReferenceIdeal.Read
import proofs.«159006_j88201448390851_1_alg».proof.Proof.Gen.Pre_finite_inputs
import proofs.«159006_j88201448390851_1_alg».proof.Proof.K.Run
import proofs.«159006_j88201448390851_1_alg».proof.Proof.KI.Run
import proofs.«159006_j88201448390851_1_alg».proof.Proof.KI.KValue
import proofs.«159006_j88201448390851_1_alg».proof.Proof.KI.Prefix
import proofs.«159006_j88201448390851_1_alg».proof.Proof.Ref.RefValue
import proofs.«159006_j88201448390851_1_alg».proof.Proof.Finite
import proofs.«159006_j88201448390851_1_alg».proof.Proof.Spec
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem hsOf_same (x : FVec Ideal Cert.KernelIdeal.S100000x64 .f32) (adjv : FVec Ideal Cert.KernelIdeal.S1600000 .f32)
    (arow acol : (⟨Cert.KernelIdeal.S1600000, .i32⟩ : BufTy).Contents (Elt Ideal)) :
    Cert.ReferenceIdeal.Val.hsOf x adjv arow acol = Cert.KernelIdeal.Val.hsOf x adjv arow acol := rfl
theorem wtOf_same (W : FVec Ideal Cert.KernelIdeal.S64x64 .f32) :
    Cert.ReferenceIdeal.Val.wtOf W = Cert.KernelIdeal.Val.wtOf W := rfl

theorem act_is_real (m : (ℓ : Loc Cert.KernelIdeal.nD Cert.KernelIdeal.τ Cert.KernelIdeal.sig) → Buf (Elt Ideal) ℓ)
    (hpre : Cert.Pre_KernelIdeal m) (c : Dev Cert.KernelIdeal.nD) (n : Fin 100000) (d : Fin 64) :
    ∃ r : ℝ, Cert.KernelIdeal.Val.hM m c n d = (r : EReal) := by
  obtain ⟨hx, ha, hW, hb⟩ := Cert.Finite.inputs_real m hpre c
  exact Cert.Spec.act_real _ _ _ _ (Cert.KernelIdeal.Val.hsOf_real _ _ _ _ hx ha) (Cert.KernelIdeal.Val.wtOf_real _ hW) hb hx n d

-- The kernel's one-pass variance mean(h²) − mean(h)² is the reference's mean((h − mean h)²) because every entry of h is real.
theorem algebraic : Cert.algebraic_KernelIdeal_ReferenceIdeal := by
  intro m ρ m' ρ' hpre hagree
  refine ⟨fun c => (Cert.KernelIdeal.Hand.dat1 (F := Ideal) (Cert.KernelIdeal.Hand.U3 m ρ) c).arrAt 5 Cert.KernelIdeal.cfg1.N,
    Cert.KernelIdeal.Hand.result_mem m ρ, ?_⟩
  refine (θ_run Cert.ReferenceIdeal.defs _ _).mono (fun _ h c => ⟨(h c).1.trans ?_, (h c).2⟩)
    (Cert.ReferenceIdeal.Value.run (F := Ideal) m' ρ')
  funext i
  obtain ⟨n, d, rfl⟩ : ∃ (n : Fin 100000) (d : Fin 64), i = ix2 n d := ⟨i 0, i 1, eq_ix2 i⟩
  refine (Cert.ReferenceIdeal.Val.result_apply m' c n d).trans ?_
  refine Eq.trans ?_ (Cert.KernelIdeal.Val.kernel_result_apply m ρ c n d).symm
  rw [(hagree c).1, (hagree c).2.1, (hagree c).2.2.1, (hagree c).2.2.2.1, (hagree c).2.2.2.2.1, (hagree c).2.2.2.2.2.1,
    (hagree c).2.2.2.2.2.2.1, (hagree c).2.2.2.2.2.2.2, hsOf_same, wtOf_same]
  exact (Cert.Spec.normK_eq_normR (Cert.KernelIdeal.Val.hM m c) (act_is_real m hpre c) _ _ n d).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
